-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S8x64 : Shape := ⟨2, ![8, 64]⟩
abbrev S8 : Shape := ⟨1, ![8]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg12 : FVec F S8 .f32) (main_v48 : IVec S_ 1) (main_v49 : FVec F S8x64 .f32) (main_v50 : FVec F S8x64 .f32) : IVec S_ 1 :=
  let main_v51 : IVec S8x64 1 := cmpf .olt main_v49 main_v50
  let main_c_19 : IVec S_ 1 := constantI S_ 1 1#1
  let main_v52 : IVec S_ 1 := (fun x v => Host.reduce IntOp.andi x v reducesTo_S8x64_S_d0_1 h_S_) main_v51 main_c_19
  let main_v53 : IVec S_ 1 := andi main_v48 main_v52
  let main_v54 : FVec F S8 .f32 := Host.absf main_arg12
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  main_v58

def fn_part2 {F : FTy → Type} [FloatOps F] (main_arg8 : FVec F S64x64 .f32) (main_arg9 : FVec F S64x64 .f32) (main_arg10 : FVec F S64x64 .f32) (main_arg11 : FVec F S8x64 .f32) (main_arg12 : FVec F S8 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S8x64 .f32 := Host.absf main_arg11
  let main_cst_18 : FVec F S_ .f32 := constant S_ .f32 0x7F800000#32
  let main_v50 : FVec F S8x64 .f32 := broadcastInDim S8x64 ![] bcast_S_S8x64 main_cst_18
  fn_part3 (F := F) main_arg12 main_v48 main_v49 main_v50

def fn_part1 {F : FTy → Type} [FloatOps F] (main_arg5 : FVec F S64x64 .f32) (main_arg6 : FVec F S64x64 .f32) (main_arg7 : FVec F S64x64 .f32) (main_arg8 : FVec F S64x64 .f32) (main_arg9 : FVec F S64x64 .f32) (main_arg10 : FVec F S64x64 .f32) (main_arg11 : FVec F S8x64 .f32) (main_arg12 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S16384x64 .f32) (main_arg1 : FVec F S16384x16384 .f32) (main_arg2 : IVec S16384 32) (main_arg3 : FVec F S64x64 .f32) (main_arg4 : FVec F S64x64 .f32) (main_arg5 : FVec F S64x64 .f32) (main_arg6 : FVec F S64x64 .f32) (main_arg7 : FVec F S64x64 .f32) (main_arg8 : FVec F S64x64 .f32) (main_arg9 : FVec F S64x64 .f32) (main_arg10 : FVec F S64x64 .f32) (main_arg11 : FVec F S8x64 .f32) (main_arg12 : FVec F S8 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S8x64 : Shape := ⟨2, ![8, 64]⟩
abbrev S8 : Shape := ⟨1, ![8]⟩
abbrev S1x8 : Shape := ⟨2, ![1, 8]⟩
abbrev S_ : Shape := ⟨0, ![]⟩
abbrev S16384x1 : Shape := ⟨2, ![16384, 1]⟩
abbrev S512x64 : Shape := ⟨2, ![512, 64]⟩
abbrev S512x4096 : Shape := ⟨2, ![512, 4096]⟩
abbrev S4096x64 : Shape := ⟨2, ![4096, 64]⟩
abbrev S16384x8 : Shape := ⟨2, ![16384, 8]⟩
abbrev S512x8 : Shape := ⟨2, ![512, 8]⟩

abbrev nBuf : Space → Nat
  | .hbm => 56
  | .vmem => 31
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S16384, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S8x64, .f32⟩
  | .hbm, ⟨12, _⟩ => ⟨S8, .f32⟩
  | .hbm, ⟨13, _⟩ => ⟨S1x8, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x64, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x64, .f32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S16384x64, .f32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S16384x64, .f32⟩
  | .hbm, ⟨50, _⟩ => ⟨S16384x64, .bf16⟩
  | .hbm, ⟨51, _⟩ => ⟨S64x64, .bf16⟩
  | .hbm, ⟨52, _⟩ => ⟨S16384x64, .f32⟩
  | .hbm, ⟨53, _⟩ => ⟨S16384x64, .f32⟩
  | .hbm, ⟨54, _⟩ => ⟨S16384x64, .f32⟩
  | .hbm, ⟨55, _⟩ => ⟨S16384x8, .f32⟩
  | .local _ .vmem, ⟨0, _⟩ => ⟨S512x64, .f32⟩
  | .local _ .vmem, ⟨1, _⟩ => ⟨S512x64, .f32⟩
  | .local _ .vmem, ⟨2, _⟩ => ⟨S16384x64, .f32⟩
  | .local _ .vmem, ⟨3, _⟩ => ⟨S64x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x4096, .f32⟩
  | .local _ .vmem, ⟨9, _⟩ => ⟨S512x4096, .f32⟩
  | .local _ .vmem, ⟨10, _⟩ => ⟨S64x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S16384x64, .f32⟩
  | .local _ .vmem, ⟨19, _⟩ => ⟨S64x64, .f32⟩
  | .local _ .vmem, ⟨20, _⟩ => ⟨S512x64, .f32⟩
  | .local _ .vmem, ⟨21, _⟩ => ⟨S512x64, .f32⟩
  | .local _ .vmem, ⟨22, _⟩ => ⟨S512x64, .f32⟩
  | .local _ .vmem, ⟨23, _⟩ => ⟨S512x64, .f32⟩
  | .local _ .vmem, ⟨24, _⟩ => ⟨S512x4096, .f32⟩
  | .local _ .vmem, ⟨25, _⟩ => ⟨S512x4096, .f32⟩
  | .local _ .vmem, ⟨26, _⟩ => ⟨S8x64, .f32⟩
  | .local _ .vmem, ⟨27, _⟩ => ⟨S1x8, .f32⟩
  | .local _ .vmem, ⟨28, _⟩ => ⟨S512x8, .f32⟩
  | .local _ .vmem, ⟨29, _⟩ => ⟨S512x8, .f32⟩
  | .local _ .vmem, ⟨30, _⟩ => ⟨S512x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32_0 : Ref sig .tc := ⟨.hbm, 53, rfl⟩
abbrev main_v32_1 : Ref sig .tc := ⟨.hbm, 54, rfl⟩
abbrev main_v33 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem7_0 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  v3
def k0_off1 (i : grid0.Coords) : Fin 2 → Nat :=
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![32, 4], ![false, false]⟩

def k1_mult1 (i : grid1.Coords) : BitVec 32 :=
  let arg1 : BitVec 32 := BitVec.ofNat 32 (i 1).val
  let c4096_i32 : BitVec 32 := 4096#32
  let v3 : BitVec 32 := Scalar.muli arg1 c4096_i32
  v3
def k1_off1 (i : grid1.Coords) : Fin 2 → Nat :=
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S8x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S512x8 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  shapeCasts_S8_S1x8 : S8.ShapeCasts S1x8
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S64x64_S64x64_0_0 : ∀ a, (![0, 0] : Fin 2 → Nat) a + S64x64.size a ≤ S64x64.size a
  h_S64x64 : 0 < S64x64.numel
  shapeCasts_S512x64_S512x64 : S512x64.ShapeCasts S512x64
  h_S4096x64 : 0 < S4096x64.numel
  shapeCasts_S4096x64_S4096x64 : S4096x64.ShapeCasts S4096x64
  inb_S512x4096_S512x4096_0_0 : ∀ a, (![0, 0] : Fin 2 → Nat) a + S512x4096.size a ≤ S512x4096.size a
  h_S512x4096 : 0 < S512x4096.numel
  inb_S8x64_S8x64_0_0 : ∀ a, (![0, 0] : Fin 2 → Nat) a + S8x64.size a ≤ S8x64.size a
  h_S8x64 : 0 < S8x64.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S512x8_S512x8_0_0 : ∀ a, (![0, 0] : Fin 2 → Nat) a + S512x8.size a ≤ S512x8.size a
  h_S512x8 : 0 < S512x8.numel
  gather_S64x64_S16384x1_S16384x64_1_0_n_n_0_1_164_wf : GatherDims.WF S64x64 S16384x1 S16384x64 [1] [0] [] [0] [] 1 ![1, 64]
  dot_S16384x64_S64x64_S16384x64_1_0_0_1_n_n_wf : DotDims.WF S16384x64 S64x64 S16384x64 [1] [0] [0] [1] [] []
  dot_S512x64_S64x64_S512x64_1_0_0_1_n_n_wf : DotDims.WF S512x64 S64x64 S512x64 [1] [0] [0] [1] [] []
  dot_S512x4096_S4096x64_S512x64_1_0_0_1_n_n_wf : DotDims.WF S512x4096 S4096x64 S512x64 [1] [0] [0] [1] [] []
  dot_S512x64_S8x64_S512x8_1_1_0_0_n_n_wf : DotDims.WF S512x64 S8x64 S512x8 [1] [1] [0] [0] [] []
  hrank0 : 0 < grid0.rank
  k0_mult1_dvd : ∀ i : grid0.Coords, 4096 ∣ (k0_mult1 i).toNat
  k0_off1_inb : ∀ i : grid0.Coords, ∀ a, (k0_off1 i) a + S4096x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S16384x64.size a
  hwx0_0 : ∀ i : grid0.Coords, EltTy.bits .f32 = 32 ∨ (Rect.block (s := S16384x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S16384x64.size a
  hwx0_3 : ∀ i : grid0.Coords, EltTy.bits .f32 = 32 ∨ (Rect.block (s := S16384x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S16384x64.size a
  hwx0_4 : ∀ i : grid0.Coords, EltTy.bits .f32 = 32 ∨ (Rect.block (s := S16384x64) S512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S16384x16384.size a
  hwx0_5 : ∀ i : grid0.Coords, EltTy.bits .f32 = 32 ∨ (Rect.block (s := S16384x16384) S512x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S16384x64.size a
  hwx0_7 : ∀ i : grid0.Coords, EltTy.bits .f32 = 32 ∨ (Rect.block (s := S16384x64) S512x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x64.size a ≤ S16384x64.size a
  hwx0_8 : ∀ i : grid0.Coords, EltTy.bits .f32 = 32 ∨ (Rect.block (s := S16384x64) S512x64.size (cc0_transform_8 i) (hinb0_8 i)).WholeWords (EltTy.packing .f32)
  hrank1 : 0 < grid1.rank
  k1_mult1_dvd : ∀ i : grid1.Coords, 4096 ∣ (k1_mult1 i).toNat
  k1_off1_inb : ∀ i : grid1.Coords, ∀ a, (k1_off1 i) a + S4096x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S16384x64.size a
  hwx1_0 : ∀ i : grid1.Coords, EltTy.bits .f32 = 32 ∨ (Rect.block (s := S16384x64) S512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S16384x64.size a
  hwx1_3 : ∀ i : grid1.Coords, EltTy.bits .f32 = 32 ∨ (Rect.block (s := S16384x64) S512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S16384x64.size a
  hwx1_4 : ∀ i : grid1.Coords, EltTy.bits .f32 = 32 ∨ (Rect.block (s := S16384x64) S512x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x4096.size a ≤ S16384x16384.size a
  hwx1_5 : ∀ i : grid1.Coords, EltTy.bits .f32 = 32 ∨ (Rect.block (s := S16384x16384) S512x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x64.size a ≤ S8x64.size a
  hwx1_6 : ∀ i : grid1.Coords, EltTy.bits .f32 = 32 ∨ (Rect.block (s := S8x64) S8x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8.size a ≤ S1x8.size a
  hwx1_7 : ∀ i : grid1.Coords, EltTy.bits .f32 = 32 ∨ (Rect.block (s := S1x8) S1x8.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x8.size a ≤ S16384x8.size a
  hwx1_8 : ∀ i : grid1.Coords, EltTy.bits .f32 = 32 ∨ (Rect.block (s := S16384x8) S512x8.size (cc1_transform_8 i) (hinb1_8 i)).WholeWords (EltTy.packing .f32)

variable [Facts₀]

def gather_S64x64_S16384x1_S16384x64_1_0_n_n_0_1_164 : GatherDims S64x64 S16384x1 S16384x64 where
  offsetDims := [1]
  collapsedSliceDims := [0]
  operandBatchingDims := []
  startIndicesBatchingDims := []
  startIndexMap := [0]
  indexVectorDim := 1
  sliceSizes := ![1, 64]
  wf := gather_S64x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S8x64_S512x8_1_1_0_0_n_n : DotDims S512x64 S8x64 S512x8 where
  lhsContracting := [1]
  rhsContracting := [1]
  lhsNonContracting := [0]
  rhsNonContracting := [0]
  lhsBatch := []
  rhsBatch := []
  wf := dot_S512x64_S8x64_S512x8_1_1_0_0_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S512x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32_0) S512x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v32_1) S512x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v32_0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_1) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S512x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S512x4096.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S8x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S1x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S512x8.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S8x64 : Shape := ⟨2, ![8, 64]⟩
abbrev S8 : Shape := ⟨1, ![8]⟩
abbrev S_ : Shape := ⟨0, ![]⟩
abbrev S16384x1 : Shape := ⟨2, ![16384, 1]⟩
abbrev S64x8 : Shape := ⟨2, ![64, 8]⟩
abbrev S16384x8 : Shape := ⟨2, ![16384, 8]⟩
abbrev S1x8 : Shape := ⟨2, ![1, 8]⟩

abbrev nBuf : Space → Nat
  | .hbm => 72
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S16384, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S8x64, .f32⟩
  | .hbm, ⟨12, _⟩ => ⟨S8, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S16384x64, .f32⟩
  | .hbm, ⟨26, _⟩ => ⟨S16384x64, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384x64, .f32⟩
  | .hbm, ⟨36, _⟩ => ⟨S16384x64, .f32⟩
  | .hbm, ⟨37, _⟩ => ⟨S_, .f32⟩
  | .hbm, ⟨38, _⟩ => ⟨S16384x64, .f32⟩
  | .hbm, ⟨39, _⟩ => ⟨S16384x64, .f32⟩
  | .hbm, ⟨40, _⟩ => ⟨S16384x64, .f32⟩
  | .hbm, ⟨41, _⟩ => ⟨S16384x64, .f32⟩
  | .hbm, ⟨42, _⟩ => ⟨S16384x64, .f32⟩
  | .hbm, ⟨43, _⟩ => ⟨S16384x64, .f32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S16384x64, .f32⟩
  | .hbm, ⟨53, _⟩ => ⟨S16384x64, .f32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384x64, .f32⟩
  | .hbm, ⟨66, _⟩ => ⟨S16384x64, .f32⟩
  | .hbm, ⟨67, _⟩ => ⟨S64x8, .f32⟩
  | .hbm, ⟨68, _⟩ => ⟨S16384x8, .f32⟩
  | .hbm, ⟨69, _⟩ => ⟨S1x8, .f32⟩
  | .hbm, ⟨70, _⟩ => ⟨S16384x8, .f32⟩
  | .hbm, ⟨71, _⟩ => ⟨S16384x8, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call1_cst : Ref sig .tc := ⟨.hbm, 64, rfl⟩
abbrev main_call1_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x64 : S_.BroadcastsInDim S16384x64 (![] : Fin 0 → Fin S16384x64.rank)
  transposes_S8x64_S64x8_1_0 : S8x64.Transposes [1, 0] S64x8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  gather_S64x64_S16384x1_S16384x64_1_0_n_n_0_1_164_wf : GatherDims.WF S64x64 S16384x1 S16384x64 [1] [0] [] [0] [] 1 ![1, 64]
  dot_S16384x64_S64x8_S16384x8_1_0_0_1_n_n_wf : DotDims.WF S16384x64 S64x8 S16384x8 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def gather_S64x64_S16384x1_S16384x64_1_0_n_n_0_1_164 : GatherDims S64x64 S16384x1 S16384x64 where
  offsetDims := [1]
  collapsedSliceDims := [0]
  operandBatchingDims := []
  startIndicesBatchingDims := []
  startIndexMap := [0]
  indexVectorDim := 1
  sliceSizes := ![1, 64]
  wf := gather_S64x64_S16384x1_S16384x64_1_0_n_n_0_1_164_wf
def dot_S16384x64_S64x8_S16384x8_1_0_0_1_n_n : DotDims S16384x64 S64x8 S16384x8 where
  lhsContracting := [1]
  rhsContracting := [0]
  lhsNonContracting := [0]
  rhsNonContracting := [1]
  lhsBatch := []
  rhsBatch := []
  wf := dot_S16384x64_S64x8_S16384x8_1_0_0_1_n_n_wf

class Facts : Prop extends Facts₀ where

variable [Facts]
-- ==== Proof.K.Common.lean ====
import proofs.«412247_j45363444580421_3_alg».proof.Proof.Gen.Kernel.Launch
import proofs.«412247_j45363444580421_3_alg».proof.Proof.Gen.Kernel.Skeleton
import proofs.«412247_j45363444580421_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces `L` written into `a` over some contents. -/
def wrote (c : Dev nD) {sh : Shape} (a : Memref sig .tc .vmem sh .f32) (L : List (View.Piece (Elt F) sh .f32)) : sProp 𝕄 :=
  iprop(∃ f, a.view.loc (c : Thread nD τ) ↦[a.view.set]{fullShare} a.view.writes (Elt F) f L)

/-- A whole memref owned at `x` is its buffer at the one contents that read as `x`. -/
theorem owns_unread (c : Dev nD) {sh : Shape} {a : Memref sig .tc .vmem sh .f32} (h : a.IsWhole) (x : Vec F sh .f32) :
    owns (c : Thread nD τ) a fullShare x = (iprop(a.view.loc (c : Thread nD τ) ↦[a.view.set]{fullShare} h.unread x) : sProp 𝕄) := by
  unfold owns
  refine equiv_iff.mp ⟨show (_ : sProp 𝕄) ⊢ _ from ?_, show (_ : sProp 𝕄) ⊢ _ from ?_⟩
  · iintro ⟨%f, %hf, H⟩; obtain rfl := h.eq_unread hf; iexact H
  · iintro H; iexists _; isplitr; · ipureintro; exact h.read_unread _
    iexact H

/-- Pieces that cover a memref, written into it, leave it holding their canon, whatever it held. -/
theorem owns_of_wrote (c : Dev nD) {sh : Shape} (a : Memref sig .tc .vmem sh .f32) (L : List (View.Piece (Elt F) sh .f32))
    (hL : ∀ y, ∃ pc ∈ L, y ∈ pc.1.set) : wrote c a L ⊢ owns (c : Thread nD τ) a fullShare (View.canon L) := by
  unfold wrote owns
  iintro ⟨%f, H⟩
  iexists _; isplitr; swap; · iexact H
  ipureintro; exact View.read_writes_eq_canon _ _ _ hL

end Cert.Kernel.Fr

end
-- ==== Proof.K.R0Runs.lean ====
import proofs.«412247_j45363444580421_3_alg».proof.Proof.K.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem idle0 : ∀ w : Fin cfg0.W, 7 ≤ w.val → ∀ t : Fin cfg0.N, ¬cond0_1 (grid0.coords t) →
    cfg0.idle w (grid0.coords t) = true ∧ (cfg0.win w).flush t = false := by decide +kernel
theorem liveC0 : ∀ w : Fin cfg0.W, 7 ≤ w.val → ∀ t : Fin cfg0.N, cond0_1 (grid0.coords t) → cfg0.idle w (grid0.coords t) = false := by decide +kernel

/-- The body's operands: the grid point and ten whole memrefs (seven inputs, two outputs, the carried scratch). -/
structure Mem0 where
  i : grid0.Coords
  a2 : Memref sig .tc .vmem S512x64 .f32
  h2 : a2.IsWhole
  a3 : Memref sig .tc .vmem S16384x64 .f32
  h3 : a3.IsWhole
  a4 : Memref sig .tc .vmem S64x64 .f32
  h4 : a4.IsWhole
  a5 : Memref sig .tc .vmem S512x64 .f32
  h5 : a5.IsWhole
  a6 : Memref sig .tc .vmem S512x64 .f32
  h6 : a6.IsWhole
  a7 : Memref sig .tc .vmem S512x4096 .f32
  h7 : a7.IsWhole
  a8 : Memref sig .tc .vmem S64x64 .f32
  h8 : a8.IsWhole
  a9 : Memref sig .tc .vmem S512x64 .f32
  h9 : a9.IsWhole
  a10 : Memref sig .tc .vmem S512x64 .f32
  h10 : a10.IsWhole
  a11 : Memref sig .tc .vmem S512x64 .f32
  h11 : a11.IsWhole

/-- What the seven inputs hold. -/
structure In0 (F : FTy → Type) where
  x0 : Vec F S512x64 .f32
  x1 : Vec F S16384x64 .f32
  x2 : Vec F S64x64 .f32
  x3 : Vec F S512x64 .f32
  x4 : Vec F S512x64 .f32
  x5 : Vec F S512x4096 .f32
  x6 : Vec F S64x64 .f32

abbrev body0 (M : Mem0) := cc0__layer1_kernel (F := F) M.i M.a2 M.h2 M.a3 M.h3 M.a4 M.h4 M.a5 M.h5 M.a6 M.h6 M.a7 M.h7 M.a8 M.h8 M.a9 M.h9 M.a10 M.h10 M.a11 M.h11

def ins0 (c : Dev nD) (M : Mem0) (X : In0 F) : sProp 𝕄 :=
  iprop(owns (c : Thread nD τ) M.a2 fullShare X.x0 ∗ owns (c : Thread nD τ) M.a3 fullShare X.x1 ∗ owns (c : Thread nD τ) M.a4 fullShare X.x2 ∗ owns (c : Thread nD τ) M.a5 fullShare X.x3 ∗ owns (c : Thread nD τ) M.a6 fullShare X.x4 ∗ owns (c : Thread nD τ) M.a7 fullShare X.x5 ∗ owns (c : Thread nD τ) M.a8 fullShare X.x6)

abbrev scM0_0 : Memref sig .tc .vmem S512x64 .f32 := Memref.whole cc0_scratch0

/-- The body's operands at grid point `t`. -/
abbrev mem0 (t : Fin cfg0.N) : Mem0 :=
  ⟨grid0.coords t, win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), scM0_0, Memref.isWhole_whole _⟩

/-- What the inputs hold at grid point `t`. -/
abbrev xin0 (c : Dev nD) (t : Fin cfg0.N) : In0 F :=
  ⟨iblk0 V c 0 t, iblk0 V c 1 t, iblk0 V c 2 t, iblk0 V c 3 t, iblk0 V c 4 t, iblk0 V c 5 t, iblk0 V c 6 t⟩

/-- Everything scoped on the core that this region never touches. -/
def Rest0 (c : Dev nD) : sProp 𝕄 :=
  Pipeline.scopedRestBut (Ix := Unit) (Name := ℕ) (U := UR sig nD τ) (Lvl := ℕ) (Val := Elt F) spec0 c [cc0_scratch0]

/-- The entry assertion with the scratch named apart, so that the body can be given it. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0
  rw [Pipeline.scopedRest_split_of_list spec0 c [cc0_scratch0] (by decide) (by decide)]
  simp only [scM0_0, owns_whole, bigSepL_singleton]
  rfl

end Cert.Kernel.Fr

end
-- ==== Proof.K.R0RunB.lean ====
import proofs.«412247_j45363444580421_3_alg».proof.Proof.K.R0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle inner step. -/
noncomputable def kernelRun0_B (c : Dev nD) (M : Mem0) (X : In0 F) (hc0 : ¬cond0_0 M.i) (hc1 : ¬cond0_1 M.i) (xs0 : Vec F S512x64 .f32) :
    Σ' (L7 : List (View.Piece (Elt F) S512x64 .f32)) (L8 : List (View.Piece (Elt F) S512x64 .f32)), { LS0 : List (View.Piece (Elt F) S512x64 .f32) //
      ∀ (xi7 xi8 : Vec F S512x64 .f32) (E : Set ℕ) (K : PUnit → sProp 𝕄),
        iprop(ins0 c M X ∗ owns (c : Thread nD τ) M.a9 fullShare xi7 ∗ owns (c : Thread nD τ) M.a10 fullShare xi8 ∗ owns (c : Thread nD τ) M.a11 fullShare xs0
            ∗ (iprop(ins0 c M X ∗ owns (c : Thread nD τ) M.a9 fullShare xi7 ∗ owns (c : Thread nD τ) M.a10 fullShare xi8 ∗ wrote c M.a11 LS0) -∗ K ⟨⟩))
          ⊢ wp frame (wpE (defs₀ (F := F)) Variants.none c none) E (body0 M) K } := by
  refine ⟨[], [], ?_, fun xi7 xi8 E K => ?run⟩
  case run =>
    simp only [body0, cc0__layer1_kernel_eq_skeleton]; unfold cc0__layer1_kernel_skel
    unfold ins0 wrote
    rw [owns_unread c M.h2, owns_unread c M.h3, owns_unread c M.h4, owns_unread c M.h5, owns_unread c M.h6, owns_unread c M.h7, owns_unread c M.h8, owns_unread c M.h9, owns_unread c M.h10, owns_unread c M.h11]
    iintro ⟨⟨H0, H1, H2, H3, H4, H5, H6⟩, H7, H8, HS0, Hk⟩
    sl_exec (disch := first | exact hc0 | exact hc1)
    sl_step
    iapply Hk
    iframe H0 H1 H2 H3 H4 H5 H6 H7 H8
    iexists _; iexact HS0

end Cert.Kernel.Fr

end
-- ==== Proof.K.R0RunA.lean ====
import proofs.«412247_j45363444580421_3_alg».proof.Proof.K.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first inner step: the scratch may hold anything, it is reset before it is read. -/
noncomputable def kernelRun0_A (c : Dev nD) (M : Mem0) (X : In0 F) (hc0 : cond0_0 M.i) (hc1 : ¬cond0_1 M.i) :
    Σ' (L7 : List (View.Piece (Elt F) S512x64 .f32)) (L8 : List (View.Piece (Elt F) S512x64 .f32)), { LS0 : List (View.Piece (Elt F) S512x64 .f32) //
      ∀ (xi7 xi8 : Vec F S512x64 .f32) (E : Set ℕ) (K : PUnit → sProp 𝕄),
        iprop(ins0 c M X ∗ owns (c : Thread nD τ) M.a9 fullShare xi7 ∗ owns (c : Thread nD τ) M.a10 fullShare xi8 ∗ (∃ d, owns (c : Thread nD τ) M.a11 fullShare d)
            ∗ (iprop(ins0 c M X ∗ owns (c : Thread nD τ) M.a9 fullShare xi7 ∗ owns (c : Thread nD τ) M.a10 fullShare xi8 ∗ wrote c M.a11 LS0) -∗ K ⟨⟩))
          ⊢ wp frame (wpE (defs₀ (F := F)) Variants.none c none) E (body0 M) K } := by
  refine ⟨[], [], ?_, fun xi7 xi8 E K => ?run⟩
  case run =>
    simp only [body0, cc0__layer1_kernel_eq_skeleton]; unfold cc0__layer1_kernel_skel
    unfold ins0 wrote
    rw [owns_unread c M.h2, owns_unread c M.h3, owns_unread c M.h4, owns_unread c M.h5, owns_unread c M.h6, owns_unread c M.h7, owns_unread c M.h8, owns_unread c M.h9, owns_unread c M.h10]
    unfold owns
    iintro ⟨⟨H0, H1, H2, H3, H4, H5, H6⟩, H7, H8, ⟨%ds0, %fs0, -, HS0⟩, Hk⟩
    sl_exec (disch := first | exact hc0 | exact hc1)
    sl_step
    iapply Hk
    iframe H0 H1 H2 H3 H4 H5 H6 H7 H8
    iexists _; iexact HS0

end Cert.Kernel.Fr

end
-- ==== Proof.K.R0RunC.lean ====
import proofs.«412247_j45363444580421_3_alg».proof.Proof.K.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last inner step: both outputs are stored. -/
noncomputable def kernelRun0_C (c : Dev nD) (M : Mem0) (X : In0 F) (hc0 : ¬cond0_0 M.i) (hc1 : cond0_1 M.i) (xs0 : Vec F S512x64 .f32) :
    Σ' (L7 : List (View.Piece (Elt F) S512x64 .f32)) (L8 : List (View.Piece (Elt F) S512x64 .f32)), { LS0 : List (View.Piece (Elt F) S512x64 .f32) //
      ∀ (E : Set ℕ) (K : PUnit → sProp 𝕄),
        iprop(ins0 c M X ∗ (∃ d, owns (c : Thread nD τ) M.a9 fullShare d) ∗ (∃ d, owns (c : Thread nD τ) M.a10 fullShare d) ∗ owns (c : Thread nD τ) M.a11 fullShare xs0
            ∗ (iprop(ins0 c M X ∗ wrote c M.a9 L7 ∗ wrote c M.a10 L8 ∗ wrote c M.a11 LS0) -∗ K ⟨⟩))
          ⊢ wp frame (wpE (defs₀ (F := F)) Variants.none c none) E (body0 M) K } := by
  refine ⟨?_, ?_, ?_, fun E K => ?run⟩
  case run =>
    simp only [body0, cc0__layer1_kernel_eq_skeleton]; unfold cc0__layer1_kernel_skel
    unfold ins0 wrote
    rw [owns_unread c M.h2, owns_unread c M.h3, owns_unread c M.h4, owns_unread c M.h5, owns_unread c M.h6, owns_unread c M.h7, owns_unread c M.h8, owns_unread c M.h11]
    unfold owns
    iintro ⟨⟨H0, H1, H2, H3, H4, H5, H6⟩, ⟨%d7, %f7, -, H7⟩, ⟨%d8, %f8, -, H8⟩, HS0, Hk⟩
    sl_exec (disch := first | exact hc0 | exact hc1)
    sl_step
    iapply Hk
    iframe H0 H1 H2 H3 H4 H5 H6
    isplitl [H7]; · iexists _; iexact H7
    isplitl [H8]; · iexists _; iexact H8
    iexists _; iexact HS0

end Cert.Kernel.Fr

end
-- ==== Proof.K.R0Frame.lean ====
import proofs.«412247_j45363444580421_3_alg».proof.Proof.K.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (M : Mem0) (X : In0 F)

/-- Per case, the canon of the pieces stored: the two outputs first, the scratch last. -/
def out0_A (hc0 : cond0_0 M.i) (hc1 : ¬cond0_1 M.i) : Vec F S512x64 .f32 × Vec F S512x64 .f32 × Vec F S512x64 .f32 :=
  (View.canon (kernelRun0_A c M X hc0 hc1).1, View.canon (kernelRun0_A c M X hc0 hc1).2.1, View.canon (kernelRun0_A c M X hc0 hc1).2.2.1)
def out0_B (hc0 : ¬cond0_0 M.i) (hc1 : ¬cond0_1 M.i) (xs0 : Vec F S512x64 .f32) : Vec F S512x64 .f32 × Vec F S512x64 .f32 × Vec F S512x64 .f32 :=
  (View.canon (kernelRun0_B c M X hc0 hc1 xs0).1, View.canon (kernelRun0_B c M X hc0 hc1 xs0).2.1, View.canon (kernelRun0_B c M X hc0 hc1 xs0).2.2.1)
def out0_C (hc0 : ¬cond0_0 M.i) (hc1 : cond0_1 M.i) (xs0 : Vec F S512x64 .f32) : Vec F S512x64 .f32 × Vec F S512x64 .f32 × Vec F S512x64 .f32 :=
  (View.canon (kernelRun0_C c M X hc0 hc1 xs0).1, View.canon (kernelRun0_C c M X hc0 hc1 xs0).2.1, View.canon (kernelRun0_C c M X hc0 hc1 xs0).2.2.1)

/-- Each case's pieces tile what they are stored into. -/
theorem scover0_A (hc0 : cond0_0 M.i) (hc1 : ¬cond0_1 M.i) (y : S512x64.Idx) : ∃ pc ∈ (kernelRun0_A c M X hc0 hc1).2.2.1, y ∈ pc.1.set :=
  View.cover_of_tiledL _ S512x64.size (by sl_kernel_rfl) y
theorem scover0_B (hc0 : ¬cond0_0 M.i) (hc1 : ¬cond0_1 M.i) (xs0 : Vec F S512x64 .f32) (y : S512x64.Idx) : ∃ pc ∈ (kernelRun0_B c M X hc0 hc1 xs0).2.2.1, y ∈ pc.1.set :=
  View.cover_of_tiledL _ S512x64.size (by sl_kernel_rfl) y
theorem scover0_C (hc0 : ¬cond0_0 M.i) (hc1 : cond0_1 M.i) (xs0 : Vec F S512x64 .f32) (y : S512x64.Idx) : ∃ pc ∈ (kernelRun0_C c M X hc0 hc1 xs0).2.2.1, y ∈ pc.1.set :=
  View.cover_of_tiledL _ S512x64.size (by sl_kernel_rfl) y
theorem cover0_C_7 (hc0 : ¬cond0_0 M.i) (hc1 : cond0_1 M.i) (xs0 : Vec F S512x64 .f32) (y : S512x64.Idx) : ∃ pc ∈ (kernelRun0_C c M X hc0 hc1 xs0).1, y ∈ pc.1.set :=
  View.cover_of_tiledL _ S512x64.size (by sl_kernel_rfl) y
theorem cover0_C_8 (hc0 : ¬cond0_0 M.i) (hc1 : cond0_1 M.i) (xs0 : Vec F S512x64 .f32) (y : S512x64.Idx) : ∃ pc ∈ (kernelRun0_C c M X hc0 hc1 xs0).2.1, y ∈ pc.1.set :=
  View.cover_of_tiledL _ S512x64.size (by sl_kernel_rfl) y

end

/-- One grid point: the case its position selects, run on the point's operands over the scratch `p` found. -/
def stepAt0 (c : Dev nD) (t : Fin cfg0.N) (p : Vec F S512x64 .f32) : Vec F S512x64 .f32 × Vec F S512x64 .f32 × Vec F S512x64 .f32 :=
  if h1 : t.val % 4 = 3 then out0_C c (mem0 t) (xin0 V c t) (fun h => by have := (hcond0_0 t).mp h; omega) ((hcond0_1 t).mpr h1) p
  else if h0 : t.val % 4 = 0 then out0_A c (mem0 t) (xin0 V c t) ((hcond0_0 t).mpr h0) (fun h => h1 ((hcond0_1 t).mp h))
  else out0_B c (mem0 t) (xin0 V c t) (fun h => h0 ((hcond0_0 t).mp h)) (fun h => h1 ((hcond0_1 t).mp h)) p

/-- What the outputs' buffers and the scratch hold after position `n`: each point steps from the scratch the point before left. -/
def outsAt0 (c : Dev nD) : (n : ℕ) → n < cfg0.N → Vec F S512x64 .f32 × Vec F S512x64 .f32 × Vec F S512x64 .f32
  | 0, hn => stepAt0 V c ⟨0, hn⟩ (View.canon [])
  | n + 1, hn => stepAt0 V c ⟨n + 1, hn⟩ (outsAt0 c n (Nat.lt_of_succ_lt hn)).2.2

abbrev prev0 (c : Dev nD) (t : Fin cfg0.N) : Vec F S512x64 .f32 := (outsAt0 V c (t.val - 1) (Nat.lt_of_le_of_lt (Nat.sub_le _ _) t.isLt)).2.2

theorem outsAt0_A (c : Dev nD) (t : Fin cfg0.N) (h0 : t.val % 4 = 0) (h1 : ¬t.val % 4 = 3) :
    outsAt0 V c t.val t.isLt = out0_A c (mem0 t) (xin0 V c t) ((hcond0_0 t).mpr h0) (fun h => h1 ((hcond0_1 t).mp h)) := by
  obtain ⟨n, hn⟩ := t
  cases n <;> (show stepAt0 V c _ _ = _; unfold stepAt0; rw [dif_neg h1, dif_pos h0])

theorem outsAt0_B (c : Dev nD) (t : Fin cfg0.N) (h0 : ¬t.val % 4 = 0) (h1 : ¬t.val % 4 = 3) :
    outsAt0 V c t.val t.isLt = out0_B c (mem0 t) (xin0 V c t) (fun h => h0 ((hcond0_0 t).mp h)) (fun h => h1 ((hcond0_1 t).mp h)) (prev0 V c t) := by
  obtain ⟨n, hn⟩ := t
  cases n with
  | zero => exact (h0 rfl).elim
  | succ n => exact (dif_neg h1).trans (dif_neg h0)

theorem outsAt0_C (c : Dev nD) (t : Fin cfg0.N) (h0 : ¬t.val % 4 = 0) (h1 : t.val % 4 = 3) :
    outsAt0 V c t.val t.isLt = out0_C c (mem0 t) (xin0 V c t) (fun h => h0 ((hcond0_0 t).mp h)) ((hcond0_1 t).mpr h1) (prev0 V c t) := by
  obtain ⟨n, hn⟩ := t
  cases n with
  | zero => exact (h0 rfl).elim
  | succ n => exact dif_pos h1

/-- The scratch as position `n` finds it: unknown at `0`, afterwards the last component of `outsAt0` at `n - 1`. -/
def scr0 (c : Dev nD) : (n : ℕ) → n ≤ cfg0.N → sProp 𝕄
  | 0, _ => iprop(∃ d, owns (c : Thread nD τ) scM0_0 fullShare d)
  | n + 1, hn => owns (c : Thread nD τ) scM0_0 fullShare (outsAt0 V c n hn).2.2

theorem scr0_any (c : Dev nD) (n : ℕ) (h : n ≤ cfg0.N) : scr0 V c n h ⊢ iprop(∃ d, owns (c : Thread nD τ) scM0_0 fullShare d) := by
  cases n with
  | zero => exact Idealize.SL.BI.Entails.refl _
  | succ n => unfold scr0; iintro H; iexists _; iexact H

theorem scr0_pos (c : Dev nD) (n : ℕ) (h : n ≤ cfg0.N) (hz : n ≠ 0) :
    scr0 V c n h = owns (c : Thread nD τ) scM0_0 fullShare (outsAt0 V c (n - 1) (by omega)).2.2 := by
  cases n with
  | zero => exact absurd rfl hz
  | succ n => rfl

/-- The region's proof data at the entry contents `V`: inputs stay at their blocks, the outputs follow `outsAt0`, the invariant carries the scratch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := iprop(iprop(scr0 V c t.val (Nat.le_of_lt_succ t.isLt) ∗ Rest0 c) ∗ (∃ r, prngReg c r))
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare :=
  (dat0 V c).share_full (fun _ => rfl) w

theorem owed0 (c : Dev nD) (t : Fin (cfg0.N + 1)) : (dat0 V c).owed t = 0 := rfl

theorem recorded0 (c : Dev nD) (t : Fin (cfg0.N + 1)) : (dat0 V c).recorded t = Set.univ := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl

set_option maxHeartbeats 4800000 in
/-- Whatever the position: `t.val % 4` picks the case, its run applies, and the scratch passes through the invariant. -/
theorem sound_body0 (c : Dev nD) (t : Fin cfg0.N) :
    iprop((dat0 V c).Φ t.castSucc ∗ (dat0 V c).owesAt () t.castSucc
      ∗ (∃ d, owns (c : Thread nD τ) (mem0 t).a2 fullShare ((dat0 V c).before 0 t d))
      ∗ (∃ d, owns (c : Thread nD τ) (mem0 t).a3 fullShare ((dat0 V c).before 1 t d))
      ∗ (∃ d, owns (c : Thread nD τ) (mem0 t).a4 fullShare ((dat0 V c).before 2 t d))
      ∗ (∃ d, owns (c : Thread nD τ) (mem0 t).a5 fullShare ((dat0 V c).before 3 t d))
      ∗ (∃ d, owns (c : Thread nD τ) (mem0 t).a6 fullShare ((dat0 V c).before 4 t d))
      ∗ (∃ d, owns (c : Thread nD τ) (mem0 t).a7 fullShare ((dat0 V c).before 5 t d))
      ∗ (∃ d, owns (c : Thread nD τ) (mem0 t).a8 fullShare ((dat0 V c).before 6 t d))
      ∗ (∃ d, owns (c : Thread nD τ) (mem0 t).a9 fullShare ((dat0 V c).before 7 t d))
      ∗ (∃ d, owns (c : Thread nD τ) (mem0 t).a10 fullShare ((dat0 V c).before 8 t d)))
      ⊢ wp frame (wpE (defs₀ (F := F)) Variants.none c none) Set.univ (body0 (mem0 t))
          (fun _ => iprop((dat0 V c).Φ t.succ ∗ (dat0 V c).owesAt () t.succ
            ∗ owns (c : Thread nD τ) (mem0 t).a2 fullShare (iblk0 V c 0 t)
            ∗ owns (c : Thread nD τ) (mem0 t).a3 fullShare (iblk0 V c 1 t)
            ∗ owns (c : Thread nD τ) (mem0 t).a4 fullShare (iblk0 V c 2 t)
            ∗ owns (c : Thread nD τ) (mem0 t).a5 fullShare (iblk0 V c 3 t)
            ∗ owns (c : Thread nD τ) (mem0 t).a6 fullShare (iblk0 V c 4 t)
            ∗ owns (c : Thread nD τ) (mem0 t).a7 fullShare (iblk0 V c 5 t)
            ∗ owns (c : Thread nD τ) (mem0 t).a8 fullShare (iblk0 V c 6 t)
            ∗ (dat0 V c).leavesExact 7 t ∗ (dat0 V c).leavesExact 8 t)) := by
  simp only [before0_0, before0_1, before0_2, before0_3, before0_4, before0_5, before0_6]
  rw [show (dat0 V c).owesAt () t.succ = (dat0 V c).owesAt () t.castSucc from rfl,
    show (dat0 V c).Φ t.succ = iprop(iprop(owns (c : Thread nD τ) scM0_0 fullShare (outsAt0 V c t.val t.isLt).2.2 ∗ Rest0 c) ∗ (∃ r, prngReg c r)) from rfl,
    show (dat0 V c).Φ t.castSucc = iprop(iprop(scr0 V c t.val (Nat.le_of_lt t.isLt) ∗ Rest0 c) ∗ (∃ r, prngReg c r)) from rfl]
  by_cases h1 : t.val % 4 = 3
  · have h0 : ¬t.val % 4 = 0 := by omega
    have hz : t.val ≠ 0 := by omega
    have hy1 : cond0_1 (grid0.coords t) := (hcond0_1 t).mpr h1
    rw [show (dat0 V c).leavesExact 7 t = owns (c : Thread nD τ) (mem0 t).a9 fullShare (outsAt0 V c t.val t.isLt).1 from by
        unfold Dat.leavesExact; rw [liveC0 7 (by decide) t hy1]; rfl,
      show (dat0 V c).leavesExact 8 t = owns (c : Thread nD τ) (mem0 t).a10 fullShare (outsAt0 V c t.val t.isLt).2.1 from by
        unfold Dat.leavesExact; rw [liveC0 8 (by decide) t hy1]; rfl,
      scr0_pos V c t.val _ hz, outsAt0_C V c t h0 h1]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_C c (mem0 t) (xin0 V c t) (fun h => h0 ((hcond0_0 t).mp h)) hy1 _).2.2.2 Set.univ _)
    unfold ins0
    iframe H0 H1 H2 H3 H4 H5 H6 HS0
    isplitl [H7]; · iexists _; iexact H7
    isplitl [H8]; · iexists _; iexact H8
    iintro ⟨⟨H0, H1, H2, H3, H4, H5, H6⟩, H7, H8, HS0⟩
    iframe H0 H1 H2 H3 H4 H5 H6 HR Hg Ho
    isplitl [HS0]
    · iapply (owns_of_wrote c _ _ (scover0_C c _ _ _ _ _)); iexact HS0
    isplitl [H7]
    · iapply (owns_of_wrote c _ _ (cover0_C_7 c _ _ _ _ _)); iexact H7
    iapply (owns_of_wrote c _ _ (cover0_C_8 c _ _ _ _ _)); iexact H8
  · have hn1 : ¬cond0_1 (grid0.coords t) := fun h => h1 ((hcond0_1 t).mp h)
    rw [Dat.leavesExact_idle (dat0 V c) 7 t (idle0 7 (by decide) t hn1).1 (idle0 7 (by decide) t hn1).2,
      Dat.leavesExact_idle (dat0 V c) 8 t (idle0 8 (by decide) t hn1).1 (idle0 8 (by decide) t hn1).2]
    by_cases h0 : t.val % 4 = 0
    · rw [outsAt0_A V c t h0 h1]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases (scr0_any V c _ _) $$ HS0 with HS0
      iapply ((kernelRun0_A c (mem0 t) (xin0 V c t) ((hcond0_0 t).mpr h0) hn1).2.2.2 _ _ Set.univ _)
      unfold ins0
      iframe H0 H1 H2 H3 H4 H5 H6 H7 H8 HS0
      iintro ⟨⟨H0, H1, H2, H3, H4, H5, H6⟩, H7, H8, HS0⟩
      iframe H0 H1 H2 H3 H4 H5 H6 HR Hg Ho
      isplitl [HS0]
      · iapply (owns_of_wrote c _ _ (scover0_A c _ _ _ _)); iexact HS0
      isplitl [H7]; · iexists _; iexact H7
      iexists _; iexact H8
    · have hz : t.val ≠ 0 := by omega
      rw [scr0_pos V c t.val _ hz, outsAt0_B V c t h0 h1]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (mem0 t) (xin0 V c t) (fun h => h0 ((hcond0_0 t).mp h)) hn1 _).2.2.2 _ _ Set.univ _)
      unfold ins0
      iframe H0 H1 H2 H3 H4 H5 H6 H7 H8 HS0
      iintro ⟨⟨H0, H1, H2, H3, H4, H5, H6⟩, H7, H8, HS0⟩
      iframe H0 H1 H2 H3 H4 H5 H6 HR Hg Ho
      isplitl [HS0]
      · iapply (owns_of_wrote c _ _ (scover0_B c _ _ _ _ _)); iexact HS0
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [PhiA0_eq]; exact Idealize.SL.BI.Entails.refl _

/-- The invariant implies the entry assertion at every position: drop what the scratch holds. -/
theorem Phi_out0 (c : Dev nD) (t : Fin (cfg0.N + 1)) : (dat0 V c).Φ t ⊢ (Pipeline.ΦA spec0 c : sProp 𝕄) := by
  rw [PhiA0_eq]; exact sep_mono_l (sep_mono_l (scr0_any V c _ _))

theorem hout0 (c : Dev nD) : (dat0 V c).Φ (Fin.last cfg0.N) ⊢ (Pipeline.ΦA spec0 c : sProp 𝕄) := Phi_out0 V c _

end Cert.Kernel.Fr

end
-- ==== Proof.K.R1Runs.lean ====
import proofs.«412247_j45363444580421_3_alg».proof.Proof.K.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem idleAt1_8 : ∀ t : Fin cfg1.N, ¬cond1_1 (grid1.coords t) → cfg1.idle 8 (grid1.coords t) = true ∧ (cfg1.win 8).flush t = false := by decide +kernel
theorem liveAt1_8 : ∀ t : Fin cfg1.N, cond1_1 (grid1.coords t) → cfg1.idle 8 (grid1.coords t) = false := by decide +kernel

/-- The body's operands: the grid point and ten whole memrefs (eight inputs, the output, the carried scratch). -/
structure Mem1 where
  i : grid1.Coords
  a2 : Memref sig .tc .vmem S512x64 .f32
  h2 : a2.IsWhole
  a3 : Memref sig .tc .vmem S16384x64 .f32
  h3 : a3.IsWhole
  a4 : Memref sig .tc .vmem S64x64 .f32
  h4 : a4.IsWhole
  a5 : Memref sig .tc .vmem S512x64 .f32
  h5 : a5.IsWhole
  a6 : Memref sig .tc .vmem S512x64 .f32
  h6 : a6.IsWhole
  a7 : Memref sig .tc .vmem S512x4096 .f32
  h7 : a7.IsWhole
  a8 : Memref sig .tc .vmem S8x64 .f32
  h8 : a8.IsWhole
  a9 : Memref sig .tc .vmem S1x8 .f32
  h9 : a9.IsWhole
  a10 : Memref sig .tc .vmem S512x8 .f32
  h10 : a10.IsWhole
  a11 : Memref sig .tc .vmem S512x64 .f32
  h11 : a11.IsWhole

/-- What the eight inputs hold. -/
structure In1 (F : FTy → Type) where
  x0 : Vec F S512x64 .f32
  x1 : Vec F S16384x64 .f32
  x2 : Vec F S64x64 .f32
  x3 : Vec F S512x64 .f32
  x4 : Vec F S512x64 .f32
  x5 : Vec F S512x4096 .f32
  x6 : Vec F S8x64 .f32
  x7 : Vec F S1x8 .f32

abbrev body1 (M : Mem1) := cc1__layer2_kernel (F := F) M.i M.a2 M.h2 M.a3 M.h3 M.a4 M.h4 M.a5 M.h5 M.a6 M.h6 M.a7 M.h7 M.a8 M.h8 M.a9 M.h9 M.a10 M.h10 M.a11 M.h11

def ins1 (c : Dev nD) (M : Mem1) (X : In1 F) : sProp 𝕄 :=
  iprop(owns (c : Thread nD τ) M.a2 fullShare X.x0 ∗ owns (c : Thread nD τ) M.a3 fullShare X.x1 ∗ owns (c : Thread nD τ) M.a4 fullShare X.x2 ∗ owns (c : Thread nD τ) M.a5 fullShare X.x3 ∗ owns (c : Thread nD τ) M.a6 fullShare X.x4 ∗ owns (c : Thread nD τ) M.a7 fullShare X.x5 ∗ owns (c : Thread nD τ) M.a8 fullShare X.x6 ∗ owns (c : Thread nD τ) M.a9 fullShare X.x7)

abbrev scM1_0 : Memref sig .tc .vmem S512x64 .f32 := Memref.whole cc1_scratch0

/-- The body's operands at grid point `t`. -/
abbrev mem1 (t : Fin cfg1.N) : Mem1 :=
  ⟨grid1.coords t, win1_0.stage (cfg1.slots t 0), hstage1_0 ((cfg1.slots t 0).cast nbuf1_0), win1_1.stage (cfg1.slots t 1), hstage1_1 ((cfg1.slots t 1).cast nbuf1_1), win1_2.stage (cfg1.slots t 2), hstage1_2 ((cfg1.slots t 2).cast nbuf1_2), win1_3.stage (cfg1.slots t 3), hstage1_3 ((cfg1.slots t 3).cast nbuf1_3), win1_4.stage (cfg1.slots t 4), hstage1_4 ((cfg1.slots t 4).cast nbuf1_4), win1_5.stage (cfg1.slots t 5), hstage1_5 ((cfg1.slots t 5).cast nbuf1_5), win1_6.stage (cfg1.slots t 6), hstage1_6 ((cfg1.slots t 6).cast nbuf1_6), win1_7.stage (cfg1.slots t 7), hstage1_7 ((cfg1.slots t 7).cast nbuf1_7), win1_8.stage (cfg1.slots t 8), hstage1_8 ((cfg1.slots t 8).cast nbuf1_8), scM1_0, Memref.isWhole_whole _⟩

/-- What the inputs hold at grid point `t`. -/
abbrev xin1 (c : Dev nD) (t : Fin cfg1.N) : In1 F :=
  ⟨iblk1 V c 0 t, iblk1 V c 1 t, iblk1 V c 2 t, iblk1 V c 3 t, iblk1 V c 4 t, iblk1 V c 5 t, iblk1 V c 6 t, iblk1 V c 7 t⟩

/-- Everything scoped on the core that this region never touches. -/
def Rest1 (c : Dev nD) : sProp 𝕄 :=
  Pipeline.scopedRestBut (Ix := Unit) (Name := ℕ) (U := UR sig nD τ) (Lvl := ℕ) (Val := Elt F) spec1 c [cc1_scratch0]

/-- The entry assertion with the scratch named apart, so that the body can be given it. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA Rest1
  rw [Pipeline.scopedRest_split_of_list spec1 c [cc1_scratch0] (by decide) (by decide)]
  simp only [scM1_0, owns_whole, bigSepL_singleton]
  rfl

end Cert.Kernel.Fr

end
-- ==== Proof.K.R1RunB.lean ====
import proofs.«412247_j45363444580421_3_alg».proof.Proof.K.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle inner step. -/
noncomputable def kernelRun1_B (c : Dev nD) (M : Mem1) (X : In1 F) (hc0 : ¬cond1_0 M.i) (hc1 : ¬cond1_1 M.i) (xs0 : Vec F S512x64 .f32) :
    Σ' (L8 : List (View.Piece (Elt F) S512x8 .f32)), { LS0 : List (View.Piece (Elt F) S512x64 .f32) //
      ∀ (xi8 : Vec F S512x8 .f32) (E : Set ℕ) (K : PUnit → sProp 𝕄),
        iprop(ins1 c M X ∗ owns (c : Thread nD τ) M.a10 fullShare xi8 ∗ owns (c : Thread nD τ) M.a11 fullShare xs0
            ∗ (iprop(ins1 c M X ∗ owns (c : Thread nD τ) M.a10 fullShare xi8 ∗ wrote c M.a11 LS0) -∗ K ⟨⟩))
          ⊢ wp frame (wpE (defs₀ (F := F)) Variants.none c none) E (body1 M) K } := by
  refine ⟨[], ?_, fun xi8 E K => ?run⟩
  case run =>
    simp only [body1, cc1__layer2_kernel_eq_skeleton]; unfold cc1__layer2_kernel_skel
    unfold ins1 wrote
    rw [owns_unread c M.h2, owns_unread c M.h3, owns_unread c M.h4, owns_unread c M.h5, owns_unread c M.h6, owns_unread c M.h7, owns_unread c M.h8, owns_unread c M.h9, owns_unread c M.h10, owns_unread c M.h11]
    iintro ⟨⟨H0, H1, H2, H3, H4, H5, H6, H7⟩, H8, HS0, Hk⟩
    sl_exec (disch := first | exact hc0 | exact hc1)
    sl_step
    iapply Hk
    iframe H0 H1 H2 H3 H4 H5 H6 H7 H8
    iexists _; iexact HS0

end Cert.Kernel.Fr

end
-- ==== Proof.K.R1RunA.lean ====
import proofs.«412247_j45363444580421_3_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first inner step: the scratch may hold anything, it is reset before it is read. -/
noncomputable def kernelRun1_A (c : Dev nD) (M : Mem1) (X : In1 F) (hc0 : cond1_0 M.i) (hc1 : ¬cond1_1 M.i) :
    Σ' (L8 : List (View.Piece (Elt F) S512x8 .f32)), { LS0 : List (View.Piece (Elt F) S512x64 .f32) //
      ∀ (xi8 : Vec F S512x8 .f32) (E : Set ℕ) (K : PUnit → sProp 𝕄),
        iprop(ins1 c M X ∗ owns (c : Thread nD τ) M.a10 fullShare xi8 ∗ (∃ d, owns (c : Thread nD τ) M.a11 fullShare d)
            ∗ (iprop(ins1 c M X ∗ owns (c : Thread nD τ) M.a10 fullShare xi8 ∗ wrote c M.a11 LS0) -∗ K ⟨⟩))
          ⊢ wp frame (wpE (defs₀ (F := F)) Variants.none c none) E (body1 M) K } := by
  refine ⟨[], ?_, fun xi8 E K => ?run⟩
  case run =>
    simp only [body1, cc1__layer2_kernel_eq_skeleton]; unfold cc1__layer2_kernel_skel
    unfold ins1 wrote
    rw [owns_unread c M.h2, owns_unread c M.h3, owns_unread c M.h4, owns_unread c M.h5, owns_unread c M.h6, owns_unread c M.h7, owns_unread c M.h8, owns_unread c M.h9, owns_unread c M.h10]
    unfold owns
    iintro ⟨⟨H0, H1, H2, H3, H4, H5, H6, H7⟩, H8, ⟨%ds0, %fs0, -, HS0⟩, Hk⟩
    sl_exec (disch := first | exact hc0 | exact hc1)
    sl_step
    iapply Hk
    iframe H0 H1 H2 H3 H4 H5 H6 H7 H8
    iexists _; iexact HS0

end Cert.Kernel.Fr

end
-- ==== Proof.K.R1RunC.lean ====
import proofs.«412247_j45363444580421_3_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last inner step: the output is stored. -/
noncomputable def kernelRun1_C (c : Dev nD) (M : Mem1) (X : In1 F) (hc0 : ¬cond1_0 M.i) (hc1 : cond1_1 M.i) (xs0 : Vec F S512x64 .f32) :
    Σ' (L8 : List (View.Piece (Elt F) S512x8 .f32)), { LS0 : List (View.Piece (Elt F) S512x64 .f32) //
      ∀ (E : Set ℕ) (K : PUnit → sProp 𝕄),
        iprop(ins1 c M X ∗ (∃ d, owns (c : Thread nD τ) M.a10 fullShare d) ∗ owns (c : Thread nD τ) M.a11 fullShare xs0
            ∗ (iprop(ins1 c M X ∗ wrote c M.a10 L8 ∗ wrote c M.a11 LS0) -∗ K ⟨⟩))
          ⊢ wp frame (wpE (defs₀ (F := F)) Variants.none c none) E (body1 M) K } := by
  refine ⟨?_, ?_, fun E K => ?run⟩
  case run =>
    simp only [body1, cc1__layer2_kernel_eq_skeleton]; unfold cc1__layer2_kernel_skel
    unfold ins1 wrote
    rw [owns_unread c M.h2, owns_unread c M.h3, owns_unread c M.h4, owns_unread c M.h5, owns_unread c M.h6, owns_unread c M.h7, owns_unread c M.h8, owns_unread c M.h9, owns_unread c M.h11]
    unfold owns
    iintro ⟨⟨H0, H1, H2, H3, H4, H5, H6, H7⟩, ⟨%d8, %f8, -, H8⟩, HS0, Hk⟩
    sl_exec (disch := first | exact hc0 | exact hc1)
    sl_step
    iapply Hk
    iframe H0 H1 H2 H3 H4 H5 H6 H7
    isplitl [H8]; · iexists _; iexact H8
    iexists _; iexact HS0

end Cert.Kernel.Fr

end
-- ==== Proof.K.R1Frame.lean ====
import proofs.«412247_j45363444580421_3_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (M : Mem1) (X : In1 F)

/-- Per case, the canon of the pieces stored: the output first, the scratch last. -/
def out1_A (hc0 : cond1_0 M.i) (hc1 : ¬cond1_1 M.i) : Vec F S512x8 .f32 × Vec F S512x64 .f32 :=
  (View.canon (kernelRun1_A c M X hc0 hc1).1, View.canon (kernelRun1_A c M X hc0 hc1).2.1)
def out1_B (hc0 : ¬cond1_0 M.i) (hc1 : ¬cond1_1 M.i) (xs0 : Vec F S512x64 .f32) : Vec F S512x8 .f32 × Vec F S512x64 .f32 :=
  (View.canon (kernelRun1_B c M X hc0 hc1 xs0).1, View.canon (kernelRun1_B c M X hc0 hc1 xs0).2.1)
def out1_C (hc0 : ¬cond1_0 M.i) (hc1 : cond1_1 M.i) (xs0 : Vec F S512x64 .f32) : Vec F S512x8 .f32 × Vec F S512x64 .f32 :=
  (View.canon (kernelRun1_C c M X hc0 hc1 xs0).1, View.canon (kernelRun1_C c M X hc0 hc1 xs0).2.1)

/-- Each case's pieces tile what they are stored into. -/
theorem scover1_A (hc0 : cond1_0 M.i) (hc1 : ¬cond1_1 M.i) (y : S512x64.Idx) : ∃ pc ∈ (kernelRun1_A c M X hc0 hc1).2.1, y ∈ pc.1.set :=
  View.cover_of_tiledL _ S512x64.size (by sl_kernel_rfl) y
theorem scover1_B (hc0 : ¬cond1_0 M.i) (hc1 : ¬cond1_1 M.i) (xs0 : Vec F S512x64 .f32) (y : S512x64.Idx) : ∃ pc ∈ (kernelRun1_B c M X hc0 hc1 xs0).2.1, y ∈ pc.1.set :=
  View.cover_of_tiledL _ S512x64.size (by sl_kernel_rfl) y
theorem scover1_C (hc0 : ¬cond1_0 M.i) (hc1 : cond1_1 M.i) (xs0 : Vec F S512x64 .f32) (y : S512x64.Idx) : ∃ pc ∈ (kernelRun1_C c M X hc0 hc1 xs0).2.1, y ∈ pc.1.set :=
  View.cover_of_tiledL _ S512x64.size (by sl_kernel_rfl) y
theorem cover1_C (hc0 : ¬cond1_0 M.i) (hc1 : cond1_1 M.i) (xs0 : Vec F S512x64 .f32) (y : S512x8.Idx) : ∃ pc ∈ (kernelRun1_C c M X hc0 hc1 xs0).1, y ∈ pc.1.set :=
  View.cover_of_tiledL _ S512x8.size (by sl_kernel_rfl) y

end

/-- One grid point: the case its position selects, run on the point's operands over the scratch `p` found. -/
def stepAt1 (c : Dev nD) (t : Fin cfg1.N) (p : Vec F S512x64 .f32) : Vec F S512x8 .f32 × Vec F S512x64 .f32 :=
  if h1 : t.val % 4 = 3 then out1_C c (mem1 t) (xin1 V c t) (fun h => by have := (hcond1_0 t).mp h; omega) ((hcond1_1 t).mpr h1) p
  else if h0 : t.val % 4 = 0 then out1_A c (mem1 t) (xin1 V c t) ((hcond1_0 t).mpr h0) (fun h => h1 ((hcond1_1 t).mp h))
  else out1_B c (mem1 t) (xin1 V c t) (fun h => h0 ((hcond1_0 t).mp h)) (fun h => h1 ((hcond1_1 t).mp h)) p

/-- What the output's buffer and the scratch hold after position `n`: each point steps from the scratch the point before left. -/
def outsAt1 (c : Dev nD) : (n : ℕ) → n < cfg1.N → Vec F S512x8 .f32 × Vec F S512x64 .f32
  | 0, hn => stepAt1 V c ⟨0, hn⟩ (View.canon [])
  | n + 1, hn => stepAt1 V c ⟨n + 1, hn⟩ (outsAt1 c n (Nat.lt_of_succ_lt hn)).2

theorem outsAt1_A (c : Dev nD) (t : Fin cfg1.N) (h0 : t.val % 4 = 0) (h1 : ¬t.val % 4 = 3) :
    outsAt1 V c t.val t.isLt = out1_A c (mem1 t) (xin1 V c t) ((hcond1_0 t).mpr h0) (fun h => h1 ((hcond1_1 t).mp h)) := by
  obtain ⟨n, hn⟩ := t
  cases n <;> (show stepAt1 V c _ _ = _; unfold stepAt1; rw [dif_neg h1, dif_pos h0])

theorem outsAt1_B (c : Dev nD) (t : Fin cfg1.N) (h0 : ¬t.val % 4 = 0) (h1 : ¬t.val % 4 = 3) :
    outsAt1 V c t.val t.isLt = out1_B c (mem1 t) (xin1 V c t) (fun h => h0 ((hcond1_0 t).mp h)) (fun h => h1 ((hcond1_1 t).mp h))
      (outsAt1 V c (t.val - 1) (Nat.lt_of_le_of_lt (Nat.sub_le _ _) t.isLt)).2 := by
  obtain ⟨n, hn⟩ := t
  cases n with
  | zero => exact (h0 rfl).elim
  | succ n => exact (dif_neg h1).trans (dif_neg h0)

theorem outsAt1_C (c : Dev nD) (t : Fin cfg1.N) (h0 : ¬t.val % 4 = 0) (h1 : t.val % 4 = 3) :
    outsAt1 V c t.val t.isLt = out1_C c (mem1 t) (xin1 V c t) (fun h => h0 ((hcond1_0 t).mp h)) ((hcond1_1 t).mpr h1)
      (outsAt1 V c (t.val - 1) (Nat.lt_of_le_of_lt (Nat.sub_le _ _) t.isLt)).2 := by
  obtain ⟨n, hn⟩ := t
  cases n with
  | zero => exact (h0 rfl).elim
  | succ n => exact dif_pos h1

/-- The scratch as position `n` finds it: unknown at `0`, afterwards the last component of `outsAt1` at `n - 1`. -/
def scr1 (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2

theorem scr1_any (c : Dev nD) (n : ℕ) (h : n ≤ cfg1.N) : scr1 V c n h ⊢ iprop(∃ d, owns (c : Thread nD τ) scM1_0 fullShare d) := by
  cases n with
  | zero => exact Idealize.SL.BI.Entails.refl _
  | succ n => unfold scr1; iintro H; iexists _; iexact H

theorem scr1_pos (c : Dev nD) (n : ℕ) (h : n ≤ cfg1.N) (hz : n ≠ 0) :
    scr1 V c n h = owns (c : Thread nD τ) scM1_0 fullShare (outsAt1 V c (n - 1) (by omega)).2 := by
  cases n with
  | zero => exact absurd rfl hz
  | succ n => rfl

/-- The region's proof data at the entry contents `V`: inputs stay at their blocks, the output follows `outsAt1`, the invariant carries the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := iprop(iprop(scr1 V c t.val (Nat.le_of_lt_succ t.isLt) ∗ Rest1 c) ∗ (∃ r, prngReg c r))
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem recorded1 (c : Dev nD) (t : Fin (cfg1.N + 1)) : (dat1 V c).recorded t = Set.univ := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl

set_option maxHeartbeats 4800000 in
/-- Whatever the position: `t.val % 4` picks the case, its run applies, and the scratch passes through the invariant. -/
theorem sound_body1 (c : Dev nD) (t : Fin cfg1.N) :
    iprop((dat1 V c).Φ t.castSucc ∗ (dat1 V c).owesAt () t.castSucc
      ∗ (∃ d, owns (c : Thread nD τ) (mem1 t).a2 fullShare ((dat1 V c).before 0 t d))
      ∗ (∃ d, owns (c : Thread nD τ) (mem1 t).a3 fullShare ((dat1 V c).before 1 t d))
      ∗ (∃ d, owns (c : Thread nD τ) (mem1 t).a4 fullShare ((dat1 V c).before 2 t d))
      ∗ (∃ d, owns (c : Thread nD τ) (mem1 t).a5 fullShare ((dat1 V c).before 3 t d))
      ∗ (∃ d, owns (c : Thread nD τ) (mem1 t).a6 fullShare ((dat1 V c).before 4 t d))
      ∗ (∃ d, owns (c : Thread nD τ) (mem1 t).a7 fullShare ((dat1 V c).before 5 t d))
      ∗ (∃ d, owns (c : Thread nD τ) (mem1 t).a8 fullShare ((dat1 V c).before 6 t d))
      ∗ (∃ d, owns (c : Thread nD τ) (mem1 t).a9 fullShare ((dat1 V c).before 7 t d))
      ∗ (∃ d, owns (c : Thread nD τ) (mem1 t).a10 fullShare ((dat1 V c).before 8 t d)))
      ⊢ wp frame (wpE (defs₀ (F := F)) Variants.none c none) Set.univ (body1 (mem1 t))
          (fun _ => iprop((dat1 V c).Φ t.succ ∗ (dat1 V c).owesAt () t.succ
            ∗ owns (c : Thread nD τ) (mem1 t).a2 fullShare (iblk1 V c 0 t)
            ∗ owns (c : Thread nD τ) (mem1 t).a3 fullShare (iblk1 V c 1 t)
            ∗ owns (c : Thread nD τ) (mem1 t).a4 fullShare (iblk1 V c 2 t)
            ∗ owns (c : Thread nD τ) (mem1 t).a5 fullShare (iblk1 V c 3 t)
            ∗ owns (c : Thread nD τ) (mem1 t).a6 fullShare (iblk1 V c 4 t)
            ∗ owns (c : Thread nD τ) (mem1 t).a7 fullShare (iblk1 V c 5 t)
            ∗ owns (c : Thread nD τ) (mem1 t).a8 fullShare (iblk1 V c 6 t)
            ∗ owns (c : Thread nD τ) (mem1 t).a9 fullShare (iblk1 V c 7 t)
            ∗ (dat1 V c).leavesExact 8 t)) := by
  simp only [before1_0, before1_1, before1_2, before1_3, before1_4, before1_5, before1_6, before1_7]
  rw [show (dat1 V c).owesAt () t.succ = (dat1 V c).owesAt () t.castSucc from rfl,
    show (dat1 V c).Φ t.succ = iprop(iprop(owns (c : Thread nD τ) scM1_0 fullShare (outsAt1 V c t.val t.isLt).2 ∗ Rest1 c) ∗ (∃ r, prngReg c r)) from rfl,
    show (dat1 V c).Φ t.castSucc = iprop(iprop(scr1 V c t.val (Nat.le_of_lt t.isLt) ∗ Rest1 c) ∗ (∃ r, prngReg c r)) from rfl]
  by_cases h1 : t.val % 4 = 3
  · have h0 : ¬t.val % 4 = 0 := by omega
    have hz : t.val ≠ 0 := by omega
    rw [show (dat1 V c).leavesExact 8 t = owns (c : Thread nD τ) (mem1 t).a10 fullShare (outsAt1 V c t.val t.isLt).1 from by
        unfold Dat.leavesExact; rw [liveAt1_8 t ((hcond1_1 t).mpr h1)]; rfl,
      scr1_pos V c t.val _ hz, outsAt1_C V c t h0 h1]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_C c (mem1 t) (xin1 V c t) (fun h => h0 ((hcond1_0 t).mp h)) ((hcond1_1 t).mpr h1) _).2.2 Set.univ _)
    unfold ins1
    iframe H0 H1 H2 H3 H4 H5 H6 H7 HS0
    isplitl [H8]; · iexists _; iexact H8
    iintro ⟨⟨H0, H1, H2, H3, H4, H5, H6, H7⟩, H8, HS0⟩
    iframe H0 H1 H2 H3 H4 H5 H6 H7 HR Hg Ho
    isplitl [HS0]
    · iapply (owns_of_wrote c _ _ (scover1_C c _ _ _ _ _)); iexact HS0
    iapply (owns_of_wrote c _ _ (cover1_C c _ _ _ _ _)); iexact H8
  · have hn1 : ¬cond1_1 (grid1.coords t) := fun h => h1 ((hcond1_1 t).mp h)
    rw [Dat.leavesExact_idle (dat1 V c) 8 t (idleAt1_8 t hn1).1 (idleAt1_8 t hn1).2]
    by_cases h0 : t.val % 4 = 0
    · rw [outsAt1_A V c t h0 h1]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases (scr1_any V c _ _) $$ HS0 with HS0
      iapply ((kernelRun1_A c (mem1 t) (xin1 V c t) ((hcond1_0 t).mpr h0) hn1).2.2 _ Set.univ _)
      unfold ins1
      iframe H0 H1 H2 H3 H4 H5 H6 H7 H8 HS0
      iintro ⟨⟨H0, H1, H2, H3, H4, H5, H6, H7⟩, H8, HS0⟩
      iframe H0 H1 H2 H3 H4 H5 H6 H7 HR Hg Ho
      isplitl [HS0]
      · iapply (owns_of_wrote c _ _ (scover1_A c _ _ _ _)); iexact HS0
      iexists _; iexact H8
    · have hz : t.val ≠ 0 := by omega
      rw [scr1_pos V c t.val _ hz, outsAt1_B V c t h0 h1]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (mem1 t) (xin1 V c t) (fun h => h0 ((hcond1_0 t).mp h)) hn1 _).2.2 _ Set.univ _)
      unfold ins1
      iframe H0 H1 H2 H3 H4 H5 H6 H7 H8 HS0
      iintro ⟨⟨H0, H1, H2, H3, H4, H5, H6, H7⟩, H8, HS0⟩
      iframe H0 H1 H2 H3 H4 H5 H6 H7 HR Hg Ho
      isplitl [HS0]
      · iapply (owns_of_wrote c _ _ (scover1_B c _ _ _ _ _)); iexact HS0
      iexists _; iexact H8

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [PhiA1_eq]; exact Idealize.SL.BI.Entails.refl _

/-- The invariant implies the entry assertion at every position: drop what the scratch holds. -/
theorem Phi_out1 (c : Dev nD) (t : Fin (cfg1.N + 1)) : (dat1 V c).Φ t ⊢ (Pipeline.ΦA spec1 c : sProp 𝕄) := by
  rw [PhiA1_eq]; exact sep_mono_l (sep_mono_l (scr1_any V c _ _))

theorem hout1 (c : Dev nD) : (dat1 V c).Φ (Fin.last cfg1.N) ⊢ (Pipeline.ΦA spec1 c : sProp 𝕄) := Phi_out1 V c _

end Cert.Kernel.Fr

end
-- ==== Proof.K.Main.lean ====
import proofs.«412247_j45363444580421_3_alg».proof.Proof.K.R0Frame
import proofs.«412247_j45363444580421_3_alg».proof.Proof.K.R1Frame
import proofs.«412247_j45363444580421_3_alg».proof.Proof.Gen.Kernel.Regions

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation arrRef withArrays ucRefs)

variable {F : FTy → Type} [FloatOps F]

local notation "𝕄" => MT nD τ sig Unit (Elt F) ℕ (UR sig nD τ) ℕ

/-- Only an output window's array changes; every other buffer is left as it was. -/
theorem withArrays_in {cfg : Cfg sig Λ₀} {c : Dev nD} (d : Dat τ (Elt F) Unit ℕ (UR sig nD τ) ℕ cfg c)
    (hinj : Function.Injective (arrRef cfg.spec)) (V : Valuation τ sig (Elt F))
    (hA : ∀ w, d.A w = V (Proc.devRef .tc (arrRef cfg.spec w))) (b : Ref sig .tc)
    (h : ∀ w, arrRef cfg.spec w = b → (cfg.win w).isOut = false) (n : ℕ) :
    withArrays cfg.spec c V (d.arrAt · n) (Proc.devRef .tc b) = V (Proc.devRef .tc b) := by
  by_cases hb : ∃ w, arrRef cfg.spec w = b
  · obtain ⟨w, rfl⟩ := hb
    exact (Pipeline.withArrays_arr _ hinj c _ _ w).trans ((d.arrAt_in w (h w rfl) n).trans (hA w))
  · exact Pipeline.withArrays_of_ne _ c _ _ b fun w e => hb ⟨w, e⟩

variable (m : (ℓ : Loc nD τ sig) → Buf (Elt F) ℓ) (ρ : Dev nD → PrngReg)

abbrev W1 : Dev nD → Valuation τ sig (Elt F) := V1 m
abbrev U1 : (c : Dev nD) → (b : Ref sig .tc) → Buf (Elt F) ((c : Thread nD τ).loc b) := fun c b => W1 m c b
def W2 (c : Dev nD) : Valuation τ sig (Elt F) := withArrays spec0 c (W1 m c) ((dat0 (U1 m) c).arrAt · cfg0.N)
theorem W2_arr (c : Dev nD) (w : Fin cfg0.W) :
    W2 m c (Proc.devRef .tc (arrRef spec0 w)) = (dat0 (U1 m) c).arrAt w cfg0.N :=
  Pipeline.withArrays_arr spec0 launch0.win.arr_inj c _ _ w
abbrev U2 : (c : Dev nD) → (b : Ref sig .tc) → Buf (Elt F) ((c : Thread nD τ).loc b) := fun c b => W2 m c b
theorem U2_of_ne (c : Dev nD) (b : Ref sig .tc) (hb : ∀ w, arrRef spec0 w ≠ b) : U2 m c b = U1 m c b :=
  Pipeline.withArrays_of_ne spec0 c _ _ b hb
theorem U2_main_v32_0 (c : Dev nD) : U2 m c main_v32_0 = (dat0 (U1 m) c).arrAt 7 cfg0.N := W2_arr m c 7
theorem U2_main_v32_1 (c : Dev nD) : U2 m c main_v32_1 = (dat0 (U1 m) c).arrAt 8 cfg0.N := W2_arr m c 8
def W3 (c : Dev nD) : Valuation τ sig (Elt F) := withArrays spec1 c (W2 m c) ((dat1 (U2 m) c).arrAt · cfg1.N)

def pdats' : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev ucAt (c : Dev nD) (V : Valuation τ sig (Elt F)) : sProp 𝕄 := iprop(StableHlo.held (c : Thread nD τ) (ucRefs τ sig) V ∗ R c)

set_option backward.isDefEq.respectTransparency.types false in
def regionSeg (p : Fin 2) (V : Dev nD → Valuation τ sig (Elt F)) (lf : Pipeline.LaunchFacts (nD := nD) (τ := τ) cfgs p)
    (hb : ∀ c, BodyObligation (pdats' m p c) (defs₀ (F := F)) Variants.none () Set.univ)
    (ho : ∀ c t, (pdats' m p c).owed t = 0) (hr : ∀ c, (pdats' m p c).recorded 0 = Set.univ)
    (hs : ∀ c w, (pdats' m p c).share w = fullShare)
    (hA : ∀ c w, (pdats' m p c).A w = V c (Proc.devRef .tc (arrRef (cfgs p).spec w)))
    (hi : ∀ c, (Pipeline.ΦA (cfgs p).spec c : sProp 𝕄) ⊢ (pdats' m p c).Φ 0)
    (hl : ∀ c, (pdats' m p c).Φ (Fin.last (cfgs p).N) ⊢ (Pipeline.ΦA (cfgs p).spec c : sProp 𝕄)) :
    Pipeline.RegionSeg (pcfgs (F := F)) adm (pdats' m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := ucAt c (V c)
  post c := ucAt c (withArrays (cfgs p).spec c (V c) ((pdats' m p c).arrAt · (cfgs p).N))
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (pcfgs (F := F)) adm (pdats' m) lf.win lf.arr_whole c (hs c) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%W, HO⟩; iexists W; isplitr
      · ipureintro; exact fun x _ => Or.inl (by rw [hr c]; trivial)
      iexact HO
    isplitl [Hp]; · iexact Hp
    iexact Hrest
  hin c := by
    refine .trans ?_ (hi c)
    unfold Pipeline.ΦA
    iintro ⟨Hp, -, Hr⟩
    isplitl [Hr]; · iexact Hr
    iexact Hp
  hout c := by
    refine (hl c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (pcfgs (F := F)) adm (Ix := Unit) (Name := ℕ) (U := UR sig nD τ) (Lvl := ℕ)
      lf.win lf.arr_whole c (pdats' m) (hs c) (fun b => V c b)
      (fun b => withArrays (cfgs p).spec c (V c) ((pdats' m p c).arrAt · (cfgs p).N) b) ((pdats' m p c).arrAt · (cfgs p).N)
      (fun w => (Pipeline.withArrays_arr (cfgs p).spec lf.win.arr_inj c (V c) ((pdats' m p c).arrAt · (cfgs p).N) w).symm)
      (fun b hb => Pipeline.withArrays_of_ne (cfgs p).spec c (V c) ((pdats' m p c).arrAt · (cfgs p).N) b
        fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

def reg0' : Pipeline.RegionSeg (pcfgs (F := F)) adm (pdats' m) () defs₀ 𝒱₀ L lv 0 :=
  regionSeg m 0 (W1 m) launch0 (body_obligation0 (U1 m)) (owed0 (U1 m)) (fun c => recorded0 (U1 m) c 0) (share0 (U1 m)) (A_eq0 (U1 m))
    (hin0 (U1 m)) (hout0 (U1 m))
def reg1' : Pipeline.RegionSeg (pcfgs (F := F)) adm (pdats' m) () defs₀ 𝒱₀ L lv 1 :=
  regionSeg m 1 (W2 m) launch1 (body_obligation1 (U2 m)) (owed1 (U2 m)) (fun c => recorded1 (U2 m) c 0) (share1 (U2 m)) (A_eq1 (U2 m))
    (hin1 (U2 m)) (hout1 (U2 m))

abbrev segs' : List (Pipeline.Seg (pcfgs (F := F)) adm (pdats' m) () defs₀ 𝒱₀ L lv) :=
  [.host (seg0 m 𝒱₀ L lv fun _ => R), .region (reg0' m), .region (reg1' m)]

set_option backward.isDefEq.respectTransparency.types false in
theorem run_main : θ_run defs (onTc (τ := τ) (main (F := F))) ⟨m, fun _ => 0, ρ⟩ (fun r => ∀ c : Dev nD,
      ∀ b ∈ ucRefs τ sig, r.2.mem ((c : Thread nD τ).1, b) = W3 m c b) :=
  Pipeline.θ_run_regions_kit (pcfgs (F := F)) adm (pdats' m) () cellOf_inj emb₁ defs₀ 𝒱₀ L lv m ρ main (segs' m)
    (fun c Q => by rw [main_segs adm (pdats' m) () 𝒱₀ L lv (seg0 m 𝒱₀ L lv fun _ => R) (reg0' m) (reg1' m) rfl c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => ucAt c (V0 m c))
    (Tₙ := fun c => iprop(StableHlo.held (c : Thread nD τ) (ucRefs τ sig) (W3 m c) ∗ ∃ r, prngReg c r))
    (hch := ⟨fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W3 m c b)
    (hfin := fun c s' => by
      iintro ⟨⟨Hh, -⟩, HSI⟩
      unfold StableHlo.held
      imodintro
      iapply (pointsTo_read_all (ucRefs τ sig) (fun b => (((c : Thread nD τ)).1, b)) (W3 m c) s')
      isplitl [Hh] <;> iassumption)
    (hQ := fun s h => h)

/-- Nothing writes an argument: no host operation, and no output window of either region. -/
theorem arg_kept {r : MemSt nD τ sig (Elt F)} (c : Dev nD) (h : ∀ b ∈ ucRefs τ sig, r.mem ((c : Thread nD τ).1, b) = W3 m c b)
    (b : Ref sig .tc) (hb : ¬ (Proc.devRef .tc b : DevRef τ sig).isScoped ∧ b ∉ hostOps0_W
      ∧ (∀ w, arrRef spec0 w = b → (cfg0.win w).isOut = false) ∧ ∀ w, arrRef spec1 w = b → (cfg1.win w).isOut = false) :
    r.mem ((c : Thread nD τ).loc b) = m ((c : Thread nD τ).loc b) :=
  (h _ (Finset.mem_filter.mpr ⟨StableHlo.devRef_mem_tcRefs b, hb.1⟩)).trans <|
    (withArrays_in (dat1 (U2 m) c) launch1.win.arr_inj _ (A_eq1 (U2 m) c) b hb.2.2.2 _).trans <|
      (withArrays_in (dat0 (U1 m) c) launch0.win.arr_inj _ (A_eq0 (U1 m) c) b hb.2.2.1 _).trans (V1_of m c b hb.2.1)

theorem value_run : θ_run defs (onTc (τ := τ) (main (F := F))) ⟨m, fun _ => 0, ρ⟩ (fun r => ∀ c : Dev nD,
      r.2.mem ((c.tc : Thread nD τ).loc main_v33) = (dat1 (U2 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have k := arg_kept m c (h c)
    ⟨(h c _ (Finset.mem_filter.mpr ⟨StableHlo.devRef_mem_tcRefs main_v33, by decide⟩)).trans
        (Pipeline.withArrays_arr spec1 launch1.win.arr_inj c _ _ 8),
     k main_arg0 (by decide), k main_arg1 (by decide), k main_arg2 (by decide), k main_arg3 (by decide), k main_arg4 (by decide),
     k main_arg5 (by decide), k main_arg6 (by decide), k main_arg7 (by decide), k main_arg8 (by decide), k main_arg9 (by decide),
     k main_arg10 (by decide), k main_arg11 (by decide), k main_arg12 (by decide)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (value_run m ρ)

end Cert.Kernel.Fr

end
-- ==== Proof.KI.Common.lean ====
import proofs.«412247_j45363444580421_3_alg».proof.Proof.Gen.KernelIdeal.Launch
import proofs.«412247_j45363444580421_3_alg».proof.Proof.Gen.KernelIdeal.Skeleton
import proofs.«412247_j45363444580421_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces `L` written into `a` over some contents. -/
def wrote (c : Dev nD) {sh : Shape} (a : Memref sig .tc .vmem sh .f32) (L : List (View.Piece (Elt F) sh .f32)) : sProp 𝕄 :=
  iprop(∃ f, a.view.loc (c : Thread nD τ) ↦[a.view.set]{fullShare} a.view.writes (Elt F) f L)

/-- A whole memref owned at `x` is its buffer at the one contents that read as `x`. -/
theorem owns_unread (c : Dev nD) {sh : Shape} {a : Memref sig .tc .vmem sh .f32} (h : a.IsWhole) (x : Vec F sh .f32) :
    owns (c : Thread nD τ) a fullShare x = (iprop(a.view.loc (c : Thread nD τ) ↦[a.view.set]{fullShare} h.unread x) : sProp 𝕄) := by
  unfold owns
  refine equiv_iff.mp ⟨show (_ : sProp 𝕄) ⊢ _ from ?_, show (_ : sProp 𝕄) ⊢ _ from ?_⟩
  · iintro ⟨%f, %hf, H⟩; obtain rfl := h.eq_unread hf; iexact H
  · iintro H; iexists _; isplitr; · ipureintro; exact h.read_unread _
    iexact H

/-- Pieces that cover a memref, written into it, leave it holding their canon, whatever it held. -/
theorem owns_of_wrote (c : Dev nD) {sh : Shape} (a : Memref sig .tc .vmem sh .f32) (L : List (View.Piece (Elt F) sh .f32))
    (hL : ∀ y, ∃ pc ∈ L, y ∈ pc.1.set) : wrote c a L ⊢ owns (c : Thread nD τ) a fullShare (View.canon L) := by
  unfold wrote owns
  iintro ⟨%f, H⟩
  iexists _; isplitr; swap; · iexact H
  ipureintro; exact View.read_writes_eq_canon _ _ _ hL

end Cert.KernelIdeal.Fr

end
-- ==== Proof.KI.R0Runs.lean ====
import proofs.«412247_j45363444580421_3_alg».proof.Proof.KI.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem idle0 : ∀ w : Fin cfg0.W, 7 ≤ w.val → ∀ t : Fin cfg0.N, ¬cond0_1 (grid0.coords t) →
    cfg0.idle w (grid0.coords t) = true ∧ (cfg0.win w).flush t = false := by decide +kernel
theorem liveC0 : ∀ w : Fin cfg0.W, 7 ≤ w.val → ∀ t : Fin cfg0.N, cond0_1 (grid0.coords t) → cfg0.idle w (grid0.coords t) = false := by decide +kernel

/-- The body's operands: the grid point and ten whole memrefs (seven inputs, two outputs, the carried scratch). -/
structure Mem0 where
  i : grid0.Coords
  a2 : Memref sig .tc .vmem S512x64 .f32
  h2 : a2.IsWhole
  a3 : Memref sig .tc .vmem S16384x64 .f32
  h3 : a3.IsWhole
  a4 : Memref sig .tc .vmem S64x64 .f32
  h4 : a4.IsWhole
  a5 : Memref sig .tc .vmem S512x64 .f32
  h5 : a5.IsWhole
  a6 : Memref sig .tc .vmem S512x64 .f32
  h6 : a6.IsWhole
  a7 : Memref sig .tc .vmem S512x4096 .f32
  h7 : a7.IsWhole
  a8 : Memref sig .tc .vmem S64x64 .f32
  h8 : a8.IsWhole
  a9 : Memref sig .tc .vmem S512x64 .f32
  h9 : a9.IsWhole
  a10 : Memref sig .tc .vmem S512x64 .f32
  h10 : a10.IsWhole
  a11 : Memref sig .tc .vmem S512x64 .f32
  h11 : a11.IsWhole

/-- What the seven inputs hold. -/
structure In0 (F : FTy → Type) where
  x0 : Vec F S512x64 .f32
  x1 : Vec F S16384x64 .f32
  x2 : Vec F S64x64 .f32
  x3 : Vec F S512x64 .f32
  x4 : Vec F S512x64 .f32
  x5 : Vec F S512x4096 .f32
  x6 : Vec F S64x64 .f32

abbrev body0 (M : Mem0) := cc0__layer1_kernel (F := F) M.i M.a2 M.h2 M.a3 M.h3 M.a4 M.h4 M.a5 M.h5 M.a6 M.h6 M.a7 M.h7 M.a8 M.h8 M.a9 M.h9 M.a10 M.h10 M.a11 M.h11

def ins0 (c : Dev nD) (M : Mem0) (X : In0 F) : sProp 𝕄 :=
  iprop(owns (c : Thread nD τ) M.a2 fullShare X.x0 ∗ owns (c : Thread nD τ) M.a3 fullShare X.x1 ∗ owns (c : Thread nD τ) M.a4 fullShare X.x2 ∗ owns (c : Thread nD τ) M.a5 fullShare X.x3 ∗ owns (c : Thread nD τ) M.a6 fullShare X.x4 ∗ owns (c : Thread nD τ) M.a7 fullShare X.x5 ∗ owns (c : Thread nD τ) M.a8 fullShare X.x6)

abbrev scM0_0 : Memref sig .tc .vmem S512x64 .f32 := Memref.whole cc0_scratch0

/-- The body's operands at grid point `t`. -/
abbrev mem0 (t : Fin cfg0.N) : Mem0 :=
  ⟨grid0.coords t, win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), scM0_0, Memref.isWhole_whole _⟩

/-- What the inputs hold at grid point `t`. -/
abbrev xin0 (c : Dev nD) (t : Fin cfg0.N) : In0 F :=
  ⟨iblk0 V c 0 t, iblk0 V c 1 t, iblk0 V c 2 t, iblk0 V c 3 t, iblk0 V c 4 t, iblk0 V c 5 t, iblk0 V c 6 t⟩

/-- Everything scoped on the core that this region never touches. -/
def Rest0 (c : Dev nD) : sProp 𝕄 :=
  Pipeline.scopedRestBut (Ix := Unit) (Name := ℕ) (U := UR sig nD τ) (Lvl := ℕ) (Val := Elt F) spec0 c [cc0_scratch0]

/-- The entry assertion with the scratch named apart, so that the body can be given it. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0
  rw [Pipeline.scopedRest_split_of_list spec0 c [cc0_scratch0] (by decide) (by decide)]
  simp only [scM0_0, owns_whole, bigSepL_singleton]
  rfl

end Cert.KernelIdeal.Fr

end
-- ==== Proof.KI.R0RunB.lean ====
import proofs.«412247_j45363444580421_3_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle inner step. -/
noncomputable def kernelRun0_B (c : Dev nD) (M : Mem0) (X : In0 F) (hc0 : ¬cond0_0 M.i) (hc1 : ¬cond0_1 M.i) (xs0 : Vec F S512x64 .f32) :
    Σ' (L7 : List (View.Piece (Elt F) S512x64 .f32)) (L8 : List (View.Piece (Elt F) S512x64 .f32)), { LS0 : List (View.Piece (Elt F) S512x64 .f32) //
      ∀ (xi7 xi8 : Vec F S512x64 .f32) (E : Set ℕ) (K : PUnit → sProp 𝕄),
        iprop(ins0 c M X ∗ owns (c : Thread nD τ) M.a9 fullShare xi7 ∗ owns (c : Thread nD τ) M.a10 fullShare xi8 ∗ owns (c : Thread nD τ) M.a11 fullShare xs0
            ∗ (iprop(ins0 c M X ∗ owns (c : Thread nD τ) M.a9 fullShare xi7 ∗ owns (c : Thread nD τ) M.a10 fullShare xi8 ∗ wrote c M.a11 LS0) -∗ K ⟨⟩))
          ⊢ wp frame (wpE (defs₀ (F := F)) Variants.none c none) E (body0 M) K } := by
  refine ⟨[], [], ?_, fun xi7 xi8 E K => ?run⟩
  case run =>
    simp only [body0, cc0__layer1_kernel_eq_skeleton]; unfold cc0__layer1_kernel_skel
    unfold ins0 wrote
    rw [owns_unread c M.h2, owns_unread c M.h3, owns_unread c M.h4, owns_unread c M.h5, owns_unread c M.h6, owns_unread c M.h7, owns_unread c M.h8, owns_unread c M.h9, owns_unread c M.h10, owns_unread c M.h11]
    iintro ⟨⟨H0, H1, H2, H3, H4, H5, H6⟩, H7, H8, HS0, Hk⟩
    sl_exec (disch := first | exact hc0 | exact hc1)
    sl_step
    iapply Hk
    iframe H0 H1 H2 H3 H4 H5 H6 H7 H8
    iexists _; iexact HS0

end Cert.KernelIdeal.Fr

end
-- ==== Proof.KI.R0RunA.lean ====
import proofs.«412247_j45363444580421_3_alg».proof.Proof.KI.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first inner step: the scratch may hold anything, it is reset before it is read. -/
noncomputable def kernelRun0_A (c : Dev nD) (M : Mem0) (X : In0 F) (hc0 : cond0_0 M.i) (hc1 : ¬cond0_1 M.i) :
    Σ' (L7 : List (View.Piece (Elt F) S512x64 .f32)) (L8 : List (View.Piece (Elt F) S512x64 .f32)), { LS0 : List (View.Piece (Elt F) S512x64 .f32) //
      ∀ (xi7 xi8 : Vec F S512x64 .f32) (E : Set ℕ) (K : PUnit → sProp 𝕄),
        iprop(ins0 c M X ∗ owns (c : Thread nD τ) M.a9 fullShare xi7 ∗ owns (c : Thread nD τ) M.a10 fullShare xi8 ∗ (∃ d, owns (c : Thread nD τ) M.a11 fullShare d)
            ∗ (iprop(ins0 c M X ∗ owns (c : Thread nD τ) M.a9 fullShare xi7 ∗ owns (c : Thread nD τ) M.a10 fullShare xi8 ∗ wrote c M.a11 LS0) -∗ K ⟨⟩))
          ⊢ wp frame (wpE (defs₀ (F := F)) Variants.none c none) E (body0 M) K } := by
  refine ⟨[], [], ?_, fun xi7 xi8 E K => ?run⟩
  case run =>
    simp only [body0, cc0__layer1_kernel_eq_skeleton]; unfold cc0__layer1_kernel_skel
    unfold ins0 wrote
    rw [owns_unread c M.h2, owns_unread c M.h3, owns_unread c M.h4, owns_unread c M.h5, owns_unread c M.h6, owns_unread c M.h7, owns_unread c M.h8, owns_unread c M.h9, owns_unread c M.h10]
    unfold owns
    iintro ⟨⟨H0, H1, H2, H3, H4, H5, H6⟩, H7, H8, ⟨%ds0, %fs0, -, HS0⟩, Hk⟩
    sl_exec (disch := first | exact hc0 | exact hc1)
    sl_step
    iapply Hk
    iframe H0 H1 H2 H3 H4 H5 H6 H7 H8
    iexists _; iexact HS0

end Cert.KernelIdeal.Fr

end
-- ==== Proof.KI.R0RunC.lean ====
import proofs.«412247_j45363444580421_3_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last inner step: both outputs are stored. -/
noncomputable def kernelRun0_C (c : Dev nD) (M : Mem0) (X : In0 F) (hc0 : ¬cond0_0 M.i) (hc1 : cond0_1 M.i) (xs0 : Vec F S512x64 .f32) :
    Σ' (L7 : List (View.Piece (Elt F) S512x64 .f32)) (L8 : List (View.Piece (Elt F) S512x64 .f32)), { LS0 : List (View.Piece (Elt F) S512x64 .f32) //
      ∀ (E : Set ℕ) (K : PUnit → sProp 𝕄),
        iprop(ins0 c M X ∗ (∃ d, owns (c : Thread nD τ) M.a9 fullShare d) ∗ (∃ d, owns (c : Thread nD τ) M.a10 fullShare d) ∗ owns (c : Thread nD τ) M.a11 fullShare xs0
            ∗ (iprop(ins0 c M X ∗ wrote c M.a9 L7 ∗ wrote c M.a10 L8 ∗ wrote c M.a11 LS0) -∗ K ⟨⟩))
          ⊢ wp frame (wpE (defs₀ (F := F)) Variants.none c none) E (body0 M) K } := by
  refine ⟨?_, ?_, ?_, fun E K => ?run⟩
  case run =>
    simp only [body0, cc0__layer1_kernel_eq_skeleton]; unfold cc0__layer1_kernel_skel
    unfold ins0 wrote
    rw [owns_unread c M.h2, owns_unread c M.h3, owns_unread c M.h4, owns_unread c M.h5, owns_unread c M.h6, owns_unread c M.h7, owns_unread c M.h8, owns_unread c M.h11]
    unfold owns
    iintro ⟨⟨H0, H1, H2, H3, H4, H5, H6⟩, ⟨%d7, %f7, -, H7⟩, ⟨%d8, %f8, -, H8⟩, HS0, Hk⟩
    sl_exec (disch := first | exact hc0 | exact hc1)
    sl_step
    iapply Hk
    iframe H0 H1 H2 H3 H4 H5 H6
    isplitl [H7]; · iexists _; iexact H7
    isplitl [H8]; · iexists _; iexact H8
    iexists _; iexact HS0

end Cert.KernelIdeal.Fr

end
-- ==== Proof.KI.R0Frame.lean ====
import proofs.«412247_j45363444580421_3_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (M : Mem0) (X : In0 F)

/-- Per case, the canon of the pieces stored: the two outputs first, the scratch last. -/
def out0_A (hc0 : cond0_0 M.i) (hc1 : ¬cond0_1 M.i) : Vec F S512x64 .f32 × Vec F S512x64 .f32 × Vec F S512x64 .f32 :=
  (View.canon (kernelRun0_A c M X hc0 hc1).1, View.canon (kernelRun0_A c M X hc0 hc1).2.1, View.canon (kernelRun0_A c M X hc0 hc1).2.2.1)
def out0_B (hc0 : ¬cond0_0 M.i) (hc1 : ¬cond0_1 M.i) (xs0 : Vec F S512x64 .f32) : Vec F S512x64 .f32 × Vec F S512x64 .f32 × Vec F S512x64 .f32 :=
  (View.canon (kernelRun0_B c M X hc0 hc1 xs0).1, View.canon (kernelRun0_B c M X hc0 hc1 xs0).2.1, View.canon (kernelRun0_B c M X hc0 hc1 xs0).2.2.1)
def out0_C (hc0 : ¬cond0_0 M.i) (hc1 : cond0_1 M.i) (xs0 : Vec F S512x64 .f32) : Vec F S512x64 .f32 × Vec F S512x64 .f32 × Vec F S512x64 .f32 :=
  (View.canon (kernelRun0_C c M X hc0 hc1 xs0).1, View.canon (kernelRun0_C c M X hc0 hc1 xs0).2.1, View.canon (kernelRun0_C c M X hc0 hc1 xs0).2.2.1)

/-- Each case's pieces tile what they are stored into. -/
theorem scover0_A (hc0 : cond0_0 M.i) (hc1 : ¬cond0_1 M.i) (y : S512x64.Idx) : ∃ pc ∈ (kernelRun0_A c M X hc0 hc1).2.2.1, y ∈ pc.1.set :=
  View.cover_of_tiledL _ S512x64.size (by sl_kernel_rfl) y
theorem scover0_B (hc0 : ¬cond0_0 M.i) (hc1 : ¬cond0_1 M.i) (xs0 : Vec F S512x64 .f32) (y : S512x64.Idx) : ∃ pc ∈ (kernelRun0_B c M X hc0 hc1 xs0).2.2.1, y ∈ pc.1.set :=
  View.cover_of_tiledL _ S512x64.size (by sl_kernel_rfl) y
theorem scover0_C (hc0 : ¬cond0_0 M.i) (hc1 : cond0_1 M.i) (xs0 : Vec F S512x64 .f32) (y : S512x64.Idx) : ∃ pc ∈ (kernelRun0_C c M X hc0 hc1 xs0).2.2.1, y ∈ pc.1.set :=
  View.cover_of_tiledL _ S512x64.size (by sl_kernel_rfl) y
theorem cover0_C_7 (hc0 : ¬cond0_0 M.i) (hc1 : cond0_1 M.i) (xs0 : Vec F S512x64 .f32) (y : S512x64.Idx) : ∃ pc ∈ (kernelRun0_C c M X hc0 hc1 xs0).1, y ∈ pc.1.set :=
  View.cover_of_tiledL _ S512x64.size (by sl_kernel_rfl) y
theorem cover0_C_8 (hc0 : ¬cond0_0 M.i) (hc1 : cond0_1 M.i) (xs0 : Vec F S512x64 .f32) (y : S512x64.Idx) : ∃ pc ∈ (kernelRun0_C c M X hc0 hc1 xs0).2.1, y ∈ pc.1.set :=
  View.cover_of_tiledL _ S512x64.size (by sl_kernel_rfl) y

end

/-- One grid point: the case its position selects, run on the point's operands over the scratch `p` found. -/
def stepAt0 (c : Dev nD) (t : Fin cfg0.N) (p : Vec F S512x64 .f32) : Vec F S512x64 .f32 × Vec F S512x64 .f32 × Vec F S512x64 .f32 :=
  if h1 : t.val % 4 = 3 then out0_C c (mem0 t) (xin0 V c t) (fun h => by have := (hcond0_0 t).mp h; omega) ((hcond0_1 t).mpr h1) p
  else if h0 : t.val % 4 = 0 then out0_A c (mem0 t) (xin0 V c t) ((hcond0_0 t).mpr h0) (fun h => h1 ((hcond0_1 t).mp h))
  else out0_B c (mem0 t) (xin0 V c t) (fun h => h0 ((hcond0_0 t).mp h)) (fun h => h1 ((hcond0_1 t).mp h)) p

/-- What the outputs' buffers and the scratch hold after position `n`: each point steps from the scratch the point before left. -/
def outsAt0 (c : Dev nD) : (n : ℕ) → n < cfg0.N → Vec F S512x64 .f32 × Vec F S512x64 .f32 × Vec F S512x64 .f32
  | 0, hn => stepAt0 V c ⟨0, hn⟩ (View.canon [])
  | n + 1, hn => stepAt0 V c ⟨n + 1, hn⟩ (outsAt0 c n (Nat.lt_of_succ_lt hn)).2.2

abbrev prev0 (c : Dev nD) (t : Fin cfg0.N) : Vec F S512x64 .f32 := (outsAt0 V c (t.val - 1) (Nat.lt_of_le_of_lt (Nat.sub_le _ _) t.isLt)).2.2

theorem outsAt0_A (c : Dev nD) (t : Fin cfg0.N) (h0 : t.val % 4 = 0) (h1 : ¬t.val % 4 = 3) :
    outsAt0 V c t.val t.isLt = out0_A c (mem0 t) (xin0 V c t) ((hcond0_0 t).mpr h0) (fun h => h1 ((hcond0_1 t).mp h)) := by
  obtain ⟨n, hn⟩ := t
  cases n <;> (show stepAt0 V c _ _ = _; unfold stepAt0; rw [dif_neg h1, dif_pos h0])

theorem outsAt0_B (c : Dev nD) (t : Fin cfg0.N) (h0 : ¬t.val % 4 = 0) (h1 : ¬t.val % 4 = 3) :
    outsAt0 V c t.val t.isLt = out0_B c (mem0 t) (xin0 V c t) (fun h => h0 ((hcond0_0 t).mp h)) (fun h => h1 ((hcond0_1 t).mp h)) (prev0 V c t) := by
  obtain ⟨n, hn⟩ := t
  cases n with
  | zero => exact (h0 rfl).elim
  | succ n => exact (dif_neg h1).trans (dif_neg h0)

theorem outsAt0_C (c : Dev nD) (t : Fin cfg0.N) (h0 : ¬t.val % 4 = 0) (h1 : t.val % 4 = 3) :
    outsAt0 V c t.val t.isLt = out0_C c (mem0 t) (xin0 V c t) (fun h => h0 ((hcond0_0 t).mp h)) ((hcond0_1 t).mpr h1) (prev0 V c t) := by
  obtain ⟨n, hn⟩ := t
  cases n with
  | zero => exact (h0 rfl).elim
  | succ n => exact dif_pos h1

/-- The scratch as position `n` finds it: unknown at `0`, afterwards the last component of `outsAt0` at `n - 1`. -/
def scr0 (c : Dev nD) : (n : ℕ) → n ≤ cfg0.N → sProp 𝕄
  | 0, _ => iprop(∃ d, owns (c : Thread nD τ) scM0_0 fullShare d)
  | n + 1, hn => owns (c : Thread nD τ) scM0_0 fullShare (outsAt0 V c n hn).2.2

theorem scr0_any (c : Dev nD) (n : ℕ) (h : n ≤ cfg0.N) : scr0 V c n h ⊢ iprop(∃ d, owns (c : Thread nD τ) scM0_0 fullShare d) := by
  cases n with
  | zero => exact Idealize.SL.BI.Entails.refl _
  | succ n => unfold scr0; iintro H; iexists _; iexact H

theorem scr0_pos (c : Dev nD) (n : ℕ) (h : n ≤ cfg0.N) (hz : n ≠ 0) :
    scr0 V c n h = owns (c : Thread nD τ) scM0_0 fullShare (outsAt0 V c (n - 1) (by omega)).2.2 := by
  cases n with
  | zero => exact absurd rfl hz
  | succ n => rfl

/-- The region's proof data at the entry contents `V`: inputs stay at their blocks, the outputs follow `outsAt0`, the invariant carries the scratch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := iprop(iprop(scr0 V c t.val (Nat.le_of_lt_succ t.isLt) ∗ Rest0 c) ∗ (∃ r, prngReg c r))
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare :=
  (dat0 V c).share_full (fun _ => rfl) w

theorem owed0 (c : Dev nD) (t : Fin (cfg0.N + 1)) : (dat0 V c).owed t = 0 := rfl

theorem recorded0 (c : Dev nD) (t : Fin (cfg0.N + 1)) : (dat0 V c).recorded t = Set.univ := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl

set_option maxHeartbeats 4800000 in
/-- Whatever the position: `t.val % 4` picks the case, its run applies, and the scratch passes through the invariant. -/
theorem sound_body0 (c : Dev nD) (t : Fin cfg0.N) :
    iprop((dat0 V c).Φ t.castSucc ∗ (dat0 V c).owesAt () t.castSucc
      ∗ (∃ d, owns (c : Thread nD τ) (mem0 t).a2 fullShare ((dat0 V c).before 0 t d))
      ∗ (∃ d, owns (c : Thread nD τ) (mem0 t).a3 fullShare ((dat0 V c).before 1 t d))
      ∗ (∃ d, owns (c : Thread nD τ) (mem0 t).a4 fullShare ((dat0 V c).before 2 t d))
      ∗ (∃ d, owns (c : Thread nD τ) (mem0 t).a5 fullShare ((dat0 V c).before 3 t d))
      ∗ (∃ d, owns (c : Thread nD τ) (mem0 t).a6 fullShare ((dat0 V c).before 4 t d))
      ∗ (∃ d, owns (c : Thread nD τ) (mem0 t).a7 fullShare ((dat0 V c).before 5 t d))
      ∗ (∃ d, owns (c : Thread nD τ) (mem0 t).a8 fullShare ((dat0 V c).before 6 t d))
      ∗ (∃ d, owns (c : Thread nD τ) (mem0 t).a9 fullShare ((dat0 V c).before 7 t d))
      ∗ (∃ d, owns (c : Thread nD τ) (mem0 t).a10 fullShare ((dat0 V c).before 8 t d)))
      ⊢ wp frame (wpE (defs₀ (F := F)) Variants.none c none) Set.univ (body0 (mem0 t))
          (fun _ => iprop((dat0 V c).Φ t.succ ∗ (dat0 V c).owesAt () t.succ
            ∗ owns (c : Thread nD τ) (mem0 t).a2 fullShare (iblk0 V c 0 t)
            ∗ owns (c : Thread nD τ) (mem0 t).a3 fullShare (iblk0 V c 1 t)
            ∗ owns (c : Thread nD τ) (mem0 t).a4 fullShare (iblk0 V c 2 t)
            ∗ owns (c : Thread nD τ) (mem0 t).a5 fullShare (iblk0 V c 3 t)
            ∗ owns (c : Thread nD τ) (mem0 t).a6 fullShare (iblk0 V c 4 t)
            ∗ owns (c : Thread nD τ) (mem0 t).a7 fullShare (iblk0 V c 5 t)
            ∗ owns (c : Thread nD τ) (mem0 t).a8 fullShare (iblk0 V c 6 t)
            ∗ (dat0 V c).leavesExact 7 t ∗ (dat0 V c).leavesExact 8 t)) := by
  simp only [before0_0, before0_1, before0_2, before0_3, before0_4, before0_5, before0_6]
  rw [show (dat0 V c).owesAt () t.succ = (dat0 V c).owesAt () t.castSucc from rfl,
    show (dat0 V c).Φ t.succ = iprop(iprop(owns (c : Thread nD τ) scM0_0 fullShare (outsAt0 V c t.val t.isLt).2.2 ∗ Rest0 c) ∗ (∃ r, prngReg c r)) from rfl,
    show (dat0 V c).Φ t.castSucc = iprop(iprop(scr0 V c t.val (Nat.le_of_lt t.isLt) ∗ Rest0 c) ∗ (∃ r, prngReg c r)) from rfl]
  by_cases h1 : t.val % 4 = 3
  · have h0 : ¬t.val % 4 = 0 := by omega
    have hz : t.val ≠ 0 := by omega
    have hy1 : cond0_1 (grid0.coords t) := (hcond0_1 t).mpr h1
    rw [show (dat0 V c).leavesExact 7 t = owns (c : Thread nD τ) (mem0 t).a9 fullShare (outsAt0 V c t.val t.isLt).1 from by
        unfold Dat.leavesExact; rw [liveC0 7 (by decide) t hy1]; rfl,
      show (dat0 V c).leavesExact 8 t = owns (c : Thread nD τ) (mem0 t).a10 fullShare (outsAt0 V c t.val t.isLt).2.1 from by
        unfold Dat.leavesExact; rw [liveC0 8 (by decide) t hy1]; rfl,
      scr0_pos V c t.val _ hz, outsAt0_C V c t h0 h1]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_C c (mem0 t) (xin0 V c t) (fun h => h0 ((hcond0_0 t).mp h)) hy1 _).2.2.2 Set.univ _)
    unfold ins0
    iframe H0 H1 H2 H3 H4 H5 H6 HS0
    isplitl [H7]; · iexists _; iexact H7
    isplitl [H8]; · iexists _; iexact H8
    iintro ⟨⟨H0, H1, H2, H3, H4, H5, H6⟩, H7, H8, HS0⟩
    iframe H0 H1 H2 H3 H4 H5 H6 HR Hg Ho
    isplitl [HS0]
    · iapply (owns_of_wrote c _ _ (scover0_C c _ _ _ _ _)); iexact HS0
    isplitl [H7]
    · iapply (owns_of_wrote c _ _ (cover0_C_7 c _ _ _ _ _)); iexact H7
    iapply (owns_of_wrote c _ _ (cover0_C_8 c _ _ _ _ _)); iexact H8
  · have hn1 : ¬cond0_1 (grid0.coords t) := fun h => h1 ((hcond0_1 t).mp h)
    rw [Dat.leavesExact_idle (dat0 V c) 7 t (idle0 7 (by decide) t hn1).1 (idle0 7 (by decide) t hn1).2,
      Dat.leavesExact_idle (dat0 V c) 8 t (idle0 8 (by decide) t hn1).1 (idle0 8 (by decide) t hn1).2]
    by_cases h0 : t.val % 4 = 0
    · rw [outsAt0_A V c t h0 h1]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases (scr0_any V c _ _) $$ HS0 with HS0
      iapply ((kernelRun0_A c (mem0 t) (xin0 V c t) ((hcond0_0 t).mpr h0) hn1).2.2.2 _ _ Set.univ _)
      unfold ins0
      iframe H0 H1 H2 H3 H4 H5 H6 H7 H8 HS0
      iintro ⟨⟨H0, H1, H2, H3, H4, H5, H6⟩, H7, H8, HS0⟩
      iframe H0 H1 H2 H3 H4 H5 H6 HR Hg Ho
      isplitl [HS0]
      · iapply (owns_of_wrote c _ _ (scover0_A c _ _ _ _)); iexact HS0
      isplitl [H7]; · iexists _; iexact H7
      iexists _; iexact H8
    · have hz : t.val ≠ 0 := by omega
      rw [scr0_pos V c t.val _ hz, outsAt0_B V c t h0 h1]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (mem0 t) (xin0 V c t) (fun h => h0 ((hcond0_0 t).mp h)) hn1 _).2.2.2 _ _ Set.univ _)
      unfold ins0
      iframe H0 H1 H2 H3 H4 H5 H6 H7 H8 HS0
      iintro ⟨⟨H0, H1, H2, H3, H4, H5, H6⟩, H7, H8, HS0⟩
      iframe H0 H1 H2 H3 H4 H5 H6 HR Hg Ho
      isplitl [HS0]
      · iapply (owns_of_wrote c _ _ (scover0_B c _ _ _ _ _)); iexact HS0
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [PhiA0_eq]; exact Idealize.SL.BI.Entails.refl _

/-- The invariant implies the entry assertion at every position: drop what the scratch holds. -/
theorem Phi_out0 (c : Dev nD) (t : Fin (cfg0.N + 1)) : (dat0 V c).Φ t ⊢ (Pipeline.ΦA spec0 c : sProp 𝕄) := by
  rw [PhiA0_eq]; exact sep_mono_l (sep_mono_l (scr0_any V c _ _))

theorem hout0 (c : Dev nD) : (dat0 V c).Φ (Fin.last cfg0.N) ⊢ (Pipeline.ΦA spec0 c : sProp 𝕄) := Phi_out0 V c _

end Cert.KernelIdeal.Fr

end
-- ==== Proof.KI.R1Runs.lean ====
import proofs.«412247_j45363444580421_3_alg».proof.Proof.KI.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem idleAt1_8 : ∀ t : Fin cfg1.N, ¬cond1_1 (grid1.coords t) → cfg1.idle 8 (grid1.coords t) = true ∧ (cfg1.win 8).flush t = false := by decide +kernel
theorem liveAt1_8 : ∀ t : Fin cfg1.N, cond1_1 (grid1.coords t) → cfg1.idle 8 (grid1.coords t) = false := by decide +kernel

/-- The body's operands: the grid point and ten whole memrefs (eight inputs, the output, the carried scratch). -/
structure Mem1 where
  i : grid1.Coords
  a2 : Memref sig .tc .vmem S512x64 .f32
  h2 : a2.IsWhole
  a3 : Memref sig .tc .vmem S16384x64 .f32
  h3 : a3.IsWhole
  a4 : Memref sig .tc .vmem S64x64 .f32
  h4 : a4.IsWhole
  a5 : Memref sig .tc .vmem S512x64 .f32
  h5 : a5.IsWhole
  a6 : Memref sig .tc .vmem S512x64 .f32
  h6 : a6.IsWhole
  a7 : Memref sig .tc .vmem S512x4096 .f32
  h7 : a7.IsWhole
  a8 : Memref sig .tc .vmem S8x64 .f32
  h8 : a8.IsWhole
  a9 : Memref sig .tc .vmem S1x8 .f32
  h9 : a9.IsWhole
  a10 : Memref sig .tc .vmem S512x8 .f32
  h10 : a10.IsWhole
  a11 : Memref sig .tc .vmem S512x64 .f32
  h11 : a11.IsWhole

/-- What the eight inputs hold. -/
structure In1 (F : FTy → Type) where
  x0 : Vec F S512x64 .f32
  x1 : Vec F S16384x64 .f32
  x2 : Vec F S64x64 .f32
  x3 : Vec F S512x64 .f32
  x4 : Vec F S512x64 .f32
  x5 : Vec F S512x4096 .f32
  x6 : Vec F S8x64 .f32
  x7 : Vec F S1x8 .f32

abbrev body1 (M : Mem1) := cc1__layer2_kernel (F := F) M.i M.a2 M.h2 M.a3 M.h3 M.a4 M.h4 M.a5 M.h5 M.a6 M.h6 M.a7 M.h7 M.a8 M.h8 M.a9 M.h9 M.a10 M.h10 M.a11 M.h11

def ins1 (c : Dev nD) (M : Mem1) (X : In1 F) : sProp 𝕄 :=
  iprop(owns (c : Thread nD τ) M.a2 fullShare X.x0 ∗ owns (c : Thread nD τ) M.a3 fullShare X.x1 ∗ owns (c : Thread nD τ) M.a4 fullShare X.x2 ∗ owns (c : Thread nD τ) M.a5 fullShare X.x3 ∗ owns (c : Thread nD τ) M.a6 fullShare X.x4 ∗ owns (c : Thread nD τ) M.a7 fullShare X.x5 ∗ owns (c : Thread nD τ) M.a8 fullShare X.x6 ∗ owns (c : Thread nD τ) M.a9 fullShare X.x7)

abbrev scM1_0 : Memref sig .tc .vmem S512x64 .f32 := Memref.whole cc1_scratch0

/-- The body's operands at grid point `t`. -/
abbrev mem1 (t : Fin cfg1.N) : Mem1 :=
  ⟨grid1.coords t, win1_0.stage (cfg1.slots t 0), hstage1_0 ((cfg1.slots t 0).cast nbuf1_0), win1_1.stage (cfg1.slots t 1), hstage1_1 ((cfg1.slots t 1).cast nbuf1_1), win1_2.stage (cfg1.slots t 2), hstage1_2 ((cfg1.slots t 2).cast nbuf1_2), win1_3.stage (cfg1.slots t 3), hstage1_3 ((cfg1.slots t 3).cast nbuf1_3), win1_4.stage (cfg1.slots t 4), hstage1_4 ((cfg1.slots t 4).cast nbuf1_4), win1_5.stage (cfg1.slots t 5), hstage1_5 ((cfg1.slots t 5).cast nbuf1_5), win1_6.stage (cfg1.slots t 6), hstage1_6 ((cfg1.slots t 6).cast nbuf1_6), win1_7.stage (cfg1.slots t 7), hstage1_7 ((cfg1.slots t 7).cast nbuf1_7), win1_8.stage (cfg1.slots t 8), hstage1_8 ((cfg1.slots t 8).cast nbuf1_8), scM1_0, Memref.isWhole_whole _⟩

/-- What the inputs hold at grid point `t`. -/
abbrev xin1 (c : Dev nD) (t : Fin cfg1.N) : In1 F :=
  ⟨iblk1 V c 0 t, iblk1 V c 1 t, iblk1 V c 2 t, iblk1 V c 3 t, iblk1 V c 4 t, iblk1 V c 5 t, iblk1 V c 6 t, iblk1 V c 7 t⟩

/-- Everything scoped on the core that this region never touches. -/
def Rest1 (c : Dev nD) : sProp 𝕄 :=
  Pipeline.scopedRestBut (Ix := Unit) (Name := ℕ) (U := UR sig nD τ) (Lvl := ℕ) (Val := Elt F) spec1 c [cc1_scratch0]

/-- The entry assertion with the scratch named apart, so that the body can be given it. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA Rest1
  rw [Pipeline.scopedRest_split_of_list spec1 c [cc1_scratch0] (by decide) (by decide)]
  simp only [scM1_0, owns_whole, bigSepL_singleton]
  rfl

end Cert.KernelIdeal.Fr

end
-- ==== Proof.KI.R1RunB.lean ====
import proofs.«412247_j45363444580421_3_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle inner step. -/
noncomputable def kernelRun1_B (c : Dev nD) (M : Mem1) (X : In1 F) (hc0 : ¬cond1_0 M.i) (hc1 : ¬cond1_1 M.i) (xs0 : Vec F S512x64 .f32) :
    Σ' (L8 : List (View.Piece (Elt F) S512x8 .f32)), { LS0 : List (View.Piece (Elt F) S512x64 .f32) //
      ∀ (xi8 : Vec F S512x8 .f32) (E : Set ℕ) (K : PUnit → sProp 𝕄),
        iprop(ins1 c M X ∗ owns (c : Thread nD τ) M.a10 fullShare xi8 ∗ owns (c : Thread nD τ) M.a11 fullShare xs0
            ∗ (iprop(ins1 c M X ∗ owns (c : Thread nD τ) M.a10 fullShare xi8 ∗ wrote c M.a11 LS0) -∗ K ⟨⟩))
          ⊢ wp frame (wpE (defs₀ (F := F)) Variants.none c none) E (body1 M) K } := by
  refine ⟨[], ?_, fun xi8 E K => ?run⟩
  case run =>
    simp only [body1, cc1__layer2_kernel_eq_skeleton]; unfold cc1__layer2_kernel_skel
    unfold ins1 wrote
    rw [owns_unread c M.h2, owns_unread c M.h3, owns_unread c M.h4, owns_unread c M.h5, owns_unread c M.h6, owns_unread c M.h7, owns_unread c M.h8, owns_unread c M.h9, owns_unread c M.h10, owns_unread c M.h11]
    iintro ⟨⟨H0, H1, H2, H3, H4, H5, H6, H7⟩, H8, HS0, Hk⟩
    sl_exec (disch := first | exact hc0 | exact hc1)
    sl_step
    iapply Hk
    iframe H0 H1 H2 H3 H4 H5 H6 H7 H8
    iexists _; iexact HS0

end Cert.KernelIdeal.Fr

end
-- ==== Proof.KI.R1RunA.lean ====
import proofs.«412247_j45363444580421_3_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first inner step: the scratch may hold anything, it is reset before it is read. -/
noncomputable def kernelRun1_A (c : Dev nD) (M : Mem1) (X : In1 F) (hc0 : cond1_0 M.i) (hc1 : ¬cond1_1 M.i) :
    Σ' (L8 : List (View.Piece (Elt F) S512x8 .f32)), { LS0 : List (View.Piece (Elt F) S512x64 .f32) //
      ∀ (xi8 : Vec F S512x8 .f32) (E : Set ℕ) (K : PUnit → sProp 𝕄),
        iprop(ins1 c M X ∗ owns (c : Thread nD τ) M.a10 fullShare xi8 ∗ (∃ d, owns (c : Thread nD τ) M.a11 fullShare d)
            ∗ (iprop(ins1 c M X ∗ owns (c : Thread nD τ) M.a10 fullShare xi8 ∗ wrote c M.a11 LS0) -∗ K ⟨⟩))
          ⊢ wp frame (wpE (defs₀ (F := F)) Variants.none c none) E (body1 M) K } := by
  refine ⟨[], ?_, fun xi8 E K => ?run⟩
  case run =>
    simp only [body1, cc1__layer2_kernel_eq_skeleton]; unfold cc1__layer2_kernel_skel
    unfold ins1 wrote
    rw [owns_unread c M.h2, owns_unread c M.h3, owns_unread c M.h4, owns_unread c M.h5, owns_unread c M.h6, owns_unread c M.h7, owns_unread c M.h8, owns_unread c M.h9, owns_unread c M.h10]
    unfold owns
    iintro ⟨⟨H0, H1, H2, H3, H4, H5, H6, H7⟩, H8, ⟨%ds0, %fs0, -, HS0⟩, Hk⟩
    sl_exec (disch := first | exact hc0 | exact hc1)
    sl_step
    iapply Hk
    iframe H0 H1 H2 H3 H4 H5 H6 H7 H8
    iexists _; iexact HS0

end Cert.KernelIdeal.Fr

end
-- ==== Proof.KI.R1RunC.lean ====
import proofs.«412247_j45363444580421_3_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last inner step: the output is stored. -/
noncomputable def kernelRun1_C (c : Dev nD) (M : Mem1) (X : In1 F) (hc0 : ¬cond1_0 M.i) (hc1 : cond1_1 M.i) (xs0 : Vec F S512x64 .f32) :
    Σ' (L8 : List (View.Piece (Elt F) S512x8 .f32)), { LS0 : List (View.Piece (Elt F) S512x64 .f32) //
      ∀ (E : Set ℕ) (K : PUnit → sProp 𝕄),
        iprop(ins1 c M X ∗ (∃ d, owns (c : Thread nD τ) M.a10 fullShare d) ∗ owns (c : Thread nD τ) M.a11 fullShare xs0
            ∗ (iprop(ins1 c M X ∗ wrote c M.a10 L8 ∗ wrote c M.a11 LS0) -∗ K ⟨⟩))
          ⊢ wp frame (wpE (defs₀ (F := F)) Variants.none c none) E (body1 M) K } := by
  refine ⟨?_, ?_, fun E K => ?run⟩
  case run =>
    simp only [body1, cc1__layer2_kernel_eq_skeleton]; unfold cc1__layer2_kernel_skel
    unfold ins1 wrote
    rw [owns_unread c M.h2, owns_unread c M.h3, owns_unread c M.h4, owns_unread c M.h5, owns_unread c M.h6, owns_unread c M.h7, owns_unread c M.h8, owns_unread c M.h9, owns_unread c M.h11]
    unfold owns
    iintro ⟨⟨H0, H1, H2, H3, H4, H5, H6, H7⟩, ⟨%d8, %f8, -, H8⟩, HS0, Hk⟩
    sl_exec (disch := first | exact hc0 | exact hc1)
    sl_step
    iapply Hk
    iframe H0 H1 H2 H3 H4 H5 H6 H7
    isplitl [H8]; · iexists _; iexact H8
    iexists _; iexact HS0

end Cert.KernelIdeal.Fr

end
-- ==== Proof.KI.R1Frame.lean ====
import proofs.«412247_j45363444580421_3_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (M : Mem1) (X : In1 F)

/-- Per case, the canon of the pieces stored: the output first, the scratch last. -/
def out1_A (hc0 : cond1_0 M.i) (hc1 : ¬cond1_1 M.i) : Vec F S512x8 .f32 × Vec F S512x64 .f32 :=
  (View.canon (kernelRun1_A c M X hc0 hc1).1, View.canon (kernelRun1_A c M X hc0 hc1).2.1)
def out1_B (hc0 : ¬cond1_0 M.i) (hc1 : ¬cond1_1 M.i) (xs0 : Vec F S512x64 .f32) : Vec F S512x8 .f32 × Vec F S512x64 .f32 :=
  (View.canon (kernelRun1_B c M X hc0 hc1 xs0).1, View.canon (kernelRun1_B c M X hc0 hc1 xs0).2.1)
def out1_C (hc0 : ¬cond1_0 M.i) (hc1 : cond1_1 M.i) (xs0 : Vec F S512x64 .f32) : Vec F S512x8 .f32 × Vec F S512x64 .f32 :=
  (View.canon (kernelRun1_C c M X hc0 hc1 xs0).1, View.canon (kernelRun1_C c M X hc0 hc1 xs0).2.1)

/-- Each case's pieces tile what they are stored into. -/
theorem scover1_A (hc0 : cond1_0 M.i) (hc1 : ¬cond1_1 M.i) (y : S512x64.Idx) : ∃ pc ∈ (kernelRun1_A c M X hc0 hc1).2.1, y ∈ pc.1.set :=
  View.cover_of_tiledL _ S512x64.size (by sl_kernel_rfl) y
theorem scover1_B (hc0 : ¬cond1_0 M.i) (hc1 : ¬cond1_1 M.i) (xs0 : Vec F S512x64 .f32) (y : S512x64.Idx) : ∃ pc ∈ (kernelRun1_B c M X hc0 hc1 xs0).2.1, y ∈ pc.1.set :=
  View.cover_of_tiledL _ S512x64.size (by sl_kernel_rfl) y
theorem scover1_C (hc0 : ¬cond1_0 M.i) (hc1 : cond1_1 M.i) (xs0 : Vec F S512x64 .f32) (y : S512x64.Idx) : ∃ pc ∈ (kernelRun1_C c M X hc0 hc1 xs0).2.1, y ∈ pc.1.set :=
  View.cover_of_tiledL _ S512x64.size (by sl_kernel_rfl) y
theorem cover1_C (hc0 : ¬cond1_0 M.i) (hc1 : cond1_1 M.i) (xs0 : Vec F S512x64 .f32) (y : S512x8.Idx) : ∃ pc ∈ (kernelRun1_C c M X hc0 hc1 xs0).1, y ∈ pc.1.set :=
  View.cover_of_tiledL _ S512x8.size (by sl_kernel_rfl) y

end

/-- One grid point: the case its position selects, run on the point's operands over the scratch `p` found. -/
def stepAt1 (c : Dev nD) (t : Fin cfg1.N) (p : Vec F S512x64 .f32) : Vec F S512x8 .f32 × Vec F S512x64 .f32 :=
  if h1 : t.val % 4 = 3 then out1_C c (mem1 t) (xin1 V c t) (fun h => by have := (hcond1_0 t).mp h; omega) ((hcond1_1 t).mpr h1) p
  else if h0 : t.val % 4 = 0 then out1_A c (mem1 t) (xin1 V c t) ((hcond1_0 t).mpr h0) (fun h => h1 ((hcond1_1 t).mp h))
  else out1_B c (mem1 t) (xin1 V c t) (fun h => h0 ((hcond1_0 t).mp h)) (fun h => h1 ((hcond1_1 t).mp h)) p

/-- What the output's buffer and the scratch hold after position `n`: each point steps from the scratch the point before left. -/
def outsAt1 (c : Dev nD) : (n : ℕ) → n < cfg1.N → Vec F S512x8 .f32 × Vec F S512x64 .f32
  | 0, hn => stepAt1 V c ⟨0, hn⟩ (View.canon [])
  | n + 1, hn => stepAt1 V c ⟨n + 1, hn⟩ (outsAt1 c n (Nat.lt_of_succ_lt hn)).2

theorem outsAt1_A (c : Dev nD) (t : Fin cfg1.N) (h0 : t.val % 4 = 0) (h1 : ¬t.val % 4 = 3) :
    outsAt1 V c t.val t.isLt = out1_A c (mem1 t) (xin1 V c t) ((hcond1_0 t).mpr h0) (fun h => h1 ((hcond1_1 t).mp h)) := by
  obtain ⟨n, hn⟩ := t
  cases n <;> (show stepAt1 V c _ _ = _; unfold stepAt1; rw [dif_neg h1, dif_pos h0])

theorem outsAt1_B (c : Dev nD) (t : Fin cfg1.N) (h0 : ¬t.val % 4 = 0) (h1 : ¬t.val % 4 = 3) :
    outsAt1 V c t.val t.isLt = out1_B c (mem1 t) (xin1 V c t) (fun h => h0 ((hcond1_0 t).mp h)) (fun h => h1 ((hcond1_1 t).mp h))
      (outsAt1 V c (t.val - 1) (Nat.lt_of_le_of_lt (Nat.sub_le _ _) t.isLt)).2 := by
  obtain ⟨n, hn⟩ := t
  cases n with
  | zero => exact (h0 rfl).elim
  | succ n => exact (dif_neg h1).trans (dif_neg h0)

theorem outsAt1_C (c : Dev nD) (t : Fin cfg1.N) (h0 : ¬t.val % 4 = 0) (h1 : t.val % 4 = 3) :
    outsAt1 V c t.val t.isLt = out1_C c (mem1 t) (xin1 V c t) (fun h => h0 ((hcond1_0 t).mp h)) ((hcond1_1 t).mpr h1)
      (outsAt1 V c (t.val - 1) (Nat.lt_of_le_of_lt (Nat.sub_le _ _) t.isLt)).2 := by
  obtain ⟨n, hn⟩ := t
  cases n with
  | zero => exact (h0 rfl).elim
  | succ n => exact dif_pos h1

/-- The scratch as position `n` finds it: unknown at `0`, afterwards the last component of `outsAt1` at `n - 1`. -/
def scr1 (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2

theorem scr1_any (c : Dev nD) (n : ℕ) (h : n ≤ cfg1.N) : scr1 V c n h ⊢ iprop(∃ d, owns (c : Thread nD τ) scM1_0 fullShare d) := by
  cases n with
  | zero => exact Idealize.SL.BI.Entails.refl _
  | succ n => unfold scr1; iintro H; iexists _; iexact H

theorem scr1_pos (c : Dev nD) (n : ℕ) (h : n ≤ cfg1.N) (hz : n ≠ 0) :
    scr1 V c n h = owns (c : Thread nD τ) scM1_0 fullShare (outsAt1 V c (n - 1) (by omega)).2 := by
  cases n with
  | zero => exact absurd rfl hz
  | succ n => rfl

/-- The region's proof data at the entry contents `V`: inputs stay at their blocks, the output follows `outsAt1`, the invariant carries the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := iprop(iprop(scr1 V c t.val (Nat.le_of_lt_succ t.isLt) ∗ Rest1 c) ∗ (∃ r, prngReg c r))
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem recorded1 (c : Dev nD) (t : Fin (cfg1.N + 1)) : (dat1 V c).recorded t = Set.univ := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl

set_option maxHeartbeats 4800000 in
/-- Whatever the position: `t.val % 4` picks the case, its run applies, and the scratch passes through the invariant. -/
theorem sound_body1 (c : Dev nD) (t : Fin cfg1.N) :
    iprop((dat1 V c).Φ t.castSucc ∗ (dat1 V c).owesAt () t.castSucc
      ∗ (∃ d, owns (c : Thread nD τ) (mem1 t).a2 fullShare ((dat1 V c).before 0 t d))
      ∗ (∃ d, owns (c : Thread nD τ) (mem1 t).a3 fullShare ((dat1 V c).before 1 t d))
      ∗ (∃ d, owns (c : Thread nD τ) (mem1 t).a4 fullShare ((dat1 V c).before 2 t d))
      ∗ (∃ d, owns (c : Thread nD τ) (mem1 t).a5 fullShare ((dat1 V c).before 3 t d))
      ∗ (∃ d, owns (c : Thread nD τ) (mem1 t).a6 fullShare ((dat1 V c).before 4 t d))
      ∗ (∃ d, owns (c : Thread nD τ) (mem1 t).a7 fullShare ((dat1 V c).before 5 t d))
      ∗ (∃ d, owns (c : Thread nD τ) (mem1 t).a8 fullShare ((dat1 V c).before 6 t d))
      ∗ (∃ d, owns (c : Thread nD τ) (mem1 t).a9 fullShare ((dat1 V c).before 7 t d))
      ∗ (∃ d, owns (c : Thread nD τ) (mem1 t).a10 fullShare ((dat1 V c).before 8 t d)))
      ⊢ wp frame (wpE (defs₀ (F := F)) Variants.none c none) Set.univ (body1 (mem1 t))
          (fun _ => iprop((dat1 V c).Φ t.succ ∗ (dat1 V c).owesAt () t.succ
            ∗ owns (c : Thread nD τ) (mem1 t).a2 fullShare (iblk1 V c 0 t)
            ∗ owns (c : Thread nD τ) (mem1 t).a3 fullShare (iblk1 V c 1 t)
            ∗ owns (c : Thread nD τ) (mem1 t).a4 fullShare (iblk1 V c 2 t)
            ∗ owns (c : Thread nD τ) (mem1 t).a5 fullShare (iblk1 V c 3 t)
            ∗ owns (c : Thread nD τ) (mem1 t).a6 fullShare (iblk1 V c 4 t)
            ∗ owns (c : Thread nD τ) (mem1 t).a7 fullShare (iblk1 V c 5 t)
            ∗ owns (c : Thread nD τ) (mem1 t).a8 fullShare (iblk1 V c 6 t)
            ∗ owns (c : Thread nD τ) (mem1 t).a9 fullShare (iblk1 V c 7 t)
            ∗ (dat1 V c).leavesExact 8 t)) := by
  simp only [before1_0, before1_1, before1_2, before1_3, before1_4, before1_5, before1_6, before1_7]
  rw [show (dat1 V c).owesAt () t.succ = (dat1 V c).owesAt () t.castSucc from rfl,
    show (dat1 V c).Φ t.succ = iprop(iprop(owns (c : Thread nD τ) scM1_0 fullShare (outsAt1 V c t.val t.isLt).2 ∗ Rest1 c) ∗ (∃ r, prngReg c r)) from rfl,
    show (dat1 V c).Φ t.castSucc = iprop(iprop(scr1 V c t.val (Nat.le_of_lt t.isLt) ∗ Rest1 c) ∗ (∃ r, prngReg c r)) from rfl]
  by_cases h1 : t.val % 4 = 3
  · have h0 : ¬t.val % 4 = 0 := by omega
    have hz : t.val ≠ 0 := by omega
    rw [show (dat1 V c).leavesExact 8 t = owns (c : Thread nD τ) (mem1 t).a10 fullShare (outsAt1 V c t.val t.isLt).1 from by
        unfold Dat.leavesExact; rw [liveAt1_8 t ((hcond1_1 t).mpr h1)]; rfl,
      scr1_pos V c t.val _ hz, outsAt1_C V c t h0 h1]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_C c (mem1 t) (xin1 V c t) (fun h => h0 ((hcond1_0 t).mp h)) ((hcond1_1 t).mpr h1) _).2.2 Set.univ _)
    unfold ins1
    iframe H0 H1 H2 H3 H4 H5 H6 H7 HS0
    isplitl [H8]; · iexists _; iexact H8
    iintro ⟨⟨H0, H1, H2, H3, H4, H5, H6, H7⟩, H8, HS0⟩
    iframe H0 H1 H2 H3 H4 H5 H6 H7 HR Hg Ho
    isplitl [HS0]
    · iapply (owns_of_wrote c _ _ (scover1_C c _ _ _ _ _)); iexact HS0
    iapply (owns_of_wrote c _ _ (cover1_C c _ _ _ _ _)); iexact H8
  · have hn1 : ¬cond1_1 (grid1.coords t) := fun h => h1 ((hcond1_1 t).mp h)
    rw [Dat.leavesExact_idle (dat1 V c) 8 t (idleAt1_8 t hn1).1 (idleAt1_8 t hn1).2]
    by_cases h0 : t.val % 4 = 0
    · rw [outsAt1_A V c t h0 h1]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases (scr1_any V c _ _) $$ HS0 with HS0
      iapply ((kernelRun1_A c (mem1 t) (xin1 V c t) ((hcond1_0 t).mpr h0) hn1).2.2 _ Set.univ _)
      unfold ins1
      iframe H0 H1 H2 H3 H4 H5 H6 H7 H8 HS0
      iintro ⟨⟨H0, H1, H2, H3, H4, H5, H6, H7⟩, H8, HS0⟩
      iframe H0 H1 H2 H3 H4 H5 H6 H7 HR Hg Ho
      isplitl [HS0]
      · iapply (owns_of_wrote c _ _ (scover1_A c _ _ _ _)); iexact HS0
      iexists _; iexact H8
    · have hz : t.val ≠ 0 := by omega
      rw [scr1_pos V c t.val _ hz, outsAt1_B V c t h0 h1]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (mem1 t) (xin1 V c t) (fun h => h0 ((hcond1_0 t).mp h)) hn1 _).2.2 _ Set.univ _)
      unfold ins1
      iframe H0 H1 H2 H3 H4 H5 H6 H7 H8 HS0
      iintro ⟨⟨H0, H1, H2, H3, H4, H5, H6, H7⟩, H8, HS0⟩
      iframe H0 H1 H2 H3 H4 H5 H6 H7 HR Hg Ho
      isplitl [HS0]
      · iapply (owns_of_wrote c _ _ (scover1_B c _ _ _ _ _)); iexact HS0
      iexists _; iexact H8

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [PhiA1_eq]; exact Idealize.SL.BI.Entails.refl _

/-- The invariant implies the entry assertion at every position: drop what the scratch holds. -/
theorem Phi_out1 (c : Dev nD) (t : Fin (cfg1.N + 1)) : (dat1 V c).Φ t ⊢ (Pipeline.ΦA spec1 c : sProp 𝕄) := by
  rw [PhiA1_eq]; exact sep_mono_l (sep_mono_l (scr1_any V c _ _))

theorem hout1 (c : Dev nD) : (dat1 V c).Φ (Fin.last cfg1.N) ⊢ (Pipeline.ΦA spec1 c : sProp 𝕄) := Phi_out1 V c _

end Cert.KernelIdeal.Fr

end
-- ==== Proof.KI.Main.lean ====
import proofs.«412247_j45363444580421_3_alg».proof.Proof.KI.R0Frame
import proofs.«412247_j45363444580421_3_alg».proof.Proof.KI.R1Frame
import proofs.«412247_j45363444580421_3_alg».proof.Proof.Gen.KernelIdeal.Regions

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation arrRef withArrays ucRefs)

variable {F : FTy → Type} [FloatOps F]

local notation "𝕄" => MT nD τ sig Unit (Elt F) ℕ (UR sig nD τ) ℕ

/-- Only an output window's array changes; every other buffer is left as it was. -/
theorem withArrays_in {cfg : Cfg sig Λ₀} {c : Dev nD} (d : Dat τ (Elt F) Unit ℕ (UR sig nD τ) ℕ cfg c)
    (hinj : Function.Injective (arrRef cfg.spec)) (V : Valuation τ sig (Elt F))
    (hA : ∀ w, d.A w = V (Proc.devRef .tc (arrRef cfg.spec w))) (b : Ref sig .tc)
    (h : ∀ w, arrRef cfg.spec w = b → (cfg.win w).isOut = false) (n : ℕ) :
    withArrays cfg.spec c V (d.arrAt · n) (Proc.devRef .tc b) = V (Proc.devRef .tc b) := by
  by_cases hb : ∃ w, arrRef cfg.spec w = b
  · obtain ⟨w, rfl⟩ := hb
    exact (Pipeline.withArrays_arr _ hinj c _ _ w).trans ((d.arrAt_in w (h w rfl) n).trans (hA w))
  · exact Pipeline.withArrays_of_ne _ c _ _ b fun w e => hb ⟨w, e⟩

variable (m : (ℓ : Loc nD τ sig) → Buf (Elt F) ℓ) (ρ : Dev nD → PrngReg)

abbrev W1 : Dev nD → Valuation τ sig (Elt F) := V1 m
abbrev U1 : (c : Dev nD) → (b : Ref sig .tc) → Buf (Elt F) ((c : Thread nD τ).loc b) := fun c b => W1 m c b
def W2 (c : Dev nD) : Valuation τ sig (Elt F) := withArrays spec0 c (W1 m c) ((dat0 (U1 m) c).arrAt · cfg0.N)
theorem W2_arr (c : Dev nD) (w : Fin cfg0.W) :
    W2 m c (Proc.devRef .tc (arrRef spec0 w)) = (dat0 (U1 m) c).arrAt w cfg0.N :=
  Pipeline.withArrays_arr spec0 launch0.win.arr_inj c _ _ w
abbrev U2 : (c : Dev nD) → (b : Ref sig .tc) → Buf (Elt F) ((c : Thread nD τ).loc b) := fun c b => W2 m c b
theorem U2_of_ne (c : Dev nD) (b : Ref sig .tc) (hb : ∀ w, arrRef spec0 w ≠ b) : U2 m c b = U1 m c b :=
  Pipeline.withArrays_of_ne spec0 c _ _ b hb
theorem U2_main_v32_0 (c : Dev nD) : U2 m c main_v32_0 = (dat0 (U1 m) c).arrAt 7 cfg0.N := W2_arr m c 7
theorem U2_main_v32_1 (c : Dev nD) : U2 m c main_v32_1 = (dat0 (U1 m) c).arrAt 8 cfg0.N := W2_arr m c 8
def W3 (c : Dev nD) : Valuation τ sig (Elt F) := withArrays spec1 c (W2 m c) ((dat1 (U2 m) c).arrAt · cfg1.N)

def pdats' : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev ucAt (c : Dev nD) (V : Valuation τ sig (Elt F)) : sProp 𝕄 := iprop(StableHlo.held (c : Thread nD τ) (ucRefs τ sig) V ∗ R c)

set_option backward.isDefEq.respectTransparency.types false in
def regionSeg (p : Fin 2) (V : Dev nD → Valuation τ sig (Elt F)) (lf : Pipeline.LaunchFacts (nD := nD) (τ := τ) cfgs p)
    (hb : ∀ c, BodyObligation (pdats' m p c) (defs₀ (F := F)) Variants.none () Set.univ)
    (ho : ∀ c t, (pdats' m p c).owed t = 0) (hr : ∀ c, (pdats' m p c).recorded 0 = Set.univ)
    (hs : ∀ c w, (pdats' m p c).share w = fullShare)
    (hA : ∀ c w, (pdats' m p c).A w = V c (Proc.devRef .tc (arrRef (cfgs p).spec w)))
    (hi : ∀ c, (Pipeline.ΦA (cfgs p).spec c : sProp 𝕄) ⊢ (pdats' m p c).Φ 0)
    (hl : ∀ c, (pdats' m p c).Φ (Fin.last (cfgs p).N) ⊢ (Pipeline.ΦA (cfgs p).spec c : sProp 𝕄)) :
    Pipeline.RegionSeg (pcfgs (F := F)) adm (pdats' m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := ucAt c (V c)
  post c := ucAt c (withArrays (cfgs p).spec c (V c) ((pdats' m p c).arrAt · (cfgs p).N))
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (pcfgs (F := F)) adm (pdats' m) lf.win lf.arr_whole c (hs c) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%W, HO⟩; iexists W; isplitr
      · ipureintro; exact fun x _ => Or.inl (by rw [hr c]; trivial)
      iexact HO
    isplitl [Hp]; · iexact Hp
    iexact Hrest
  hin c := by
    refine .trans ?_ (hi c)
    unfold Pipeline.ΦA
    iintro ⟨Hp, -, Hr⟩
    isplitl [Hr]; · iexact Hr
    iexact Hp
  hout c := by
    refine (hl c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (pcfgs (F := F)) adm (Ix := Unit) (Name := ℕ) (U := UR sig nD τ) (Lvl := ℕ)
      lf.win lf.arr_whole c (pdats' m) (hs c) (fun b => V c b)
      (fun b => withArrays (cfgs p).spec c (V c) ((pdats' m p c).arrAt · (cfgs p).N) b) ((pdats' m p c).arrAt · (cfgs p).N)
      (fun w => (Pipeline.withArrays_arr (cfgs p).spec lf.win.arr_inj c (V c) ((pdats' m p c).arrAt · (cfgs p).N) w).symm)
      (fun b hb => Pipeline.withArrays_of_ne (cfgs p).spec c (V c) ((pdats' m p c).arrAt · (cfgs p).N) b
        fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

def reg0' : Pipeline.RegionSeg (pcfgs (F := F)) adm (pdats' m) () defs₀ 𝒱₀ L lv 0 :=
  regionSeg m 0 (W1 m) launch0 (body_obligation0 (U1 m)) (owed0 (U1 m)) (fun c => recorded0 (U1 m) c 0) (share0 (U1 m)) (A_eq0 (U1 m))
    (hin0 (U1 m)) (hout0 (U1 m))
def reg1' : Pipeline.RegionSeg (pcfgs (F := F)) adm (pdats' m) () defs₀ 𝒱₀ L lv 1 :=
  regionSeg m 1 (W2 m) launch1 (body_obligation1 (U2 m)) (owed1 (U2 m)) (fun c => recorded1 (U2 m) c 0) (share1 (U2 m)) (A_eq1 (U2 m))
    (hin1 (U2 m)) (hout1 (U2 m))

abbrev segs' : List (Pipeline.Seg (pcfgs (F := F)) adm (pdats' m) () defs₀ 𝒱₀ L lv) :=
  [.host (seg0 m 𝒱₀ L lv fun _ => R), .region (reg0' m), .region (reg1' m)]

set_option backward.isDefEq.respectTransparency.types false in
theorem run_main : θ_run defs (onTc (τ := τ) (main (F := F))) ⟨m, fun _ => 0, ρ⟩ (fun r => ∀ c : Dev nD,
      ∀ b ∈ ucRefs τ sig, r.2.mem ((c : Thread nD τ).1, b) = W3 m c b) :=
  Pipeline.θ_run_regions_kit (pcfgs (F := F)) adm (pdats' m) () cellOf_inj emb₁ defs₀ 𝒱₀ L lv m ρ main (segs' m)
    (fun c Q => by rw [main_segs adm (pdats' m) () 𝒱₀ L lv (seg0 m 𝒱₀ L lv fun _ => R) (reg0' m) (reg1' m) rfl c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => ucAt c (V0 m c))
    (Tₙ := fun c => iprop(StableHlo.held (c : Thread nD τ) (ucRefs τ sig) (W3 m c) ∗ ∃ r, prngReg c r))
    (hch := ⟨fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W3 m c b)
    (hfin := fun c s' => by
      iintro ⟨⟨Hh, -⟩, HSI⟩
      unfold StableHlo.held
      imodintro
      iapply (pointsTo_read_all (ucRefs τ sig) (fun b => (((c : Thread nD τ)).1, b)) (W3 m c) s')
      isplitl [Hh] <;> iassumption)
    (hQ := fun s h => h)

/-- Nothing writes an argument: no host operation, and no output window of either region. -/
theorem arg_kept {r : MemSt nD τ sig (Elt F)} (c : Dev nD) (h : ∀ b ∈ ucRefs τ sig, r.mem ((c : Thread nD τ).1, b) = W3 m c b)
    (b : Ref sig .tc) (hb : ¬ (Proc.devRef .tc b : DevRef τ sig).isScoped ∧ b ∉ hostOps0_W
      ∧ (∀ w, arrRef spec0 w = b → (cfg0.win w).isOut = false) ∧ ∀ w, arrRef spec1 w = b → (cfg1.win w).isOut = false) :
    r.mem ((c : Thread nD τ).loc b) = m ((c : Thread nD τ).loc b) :=
  (h _ (Finset.mem_filter.mpr ⟨StableHlo.devRef_mem_tcRefs b, hb.1⟩)).trans <|
    (withArrays_in (dat1 (U2 m) c) launch1.win.arr_inj _ (A_eq1 (U2 m) c) b hb.2.2.2 _).trans <|
      (withArrays_in (dat0 (U1 m) c) launch0.win.arr_inj _ (A_eq0 (U1 m) c) b hb.2.2.1 _).trans (V1_of m c b hb.2.1)

theorem value_run : θ_run defs (onTc (τ := τ) (main (F := F))) ⟨m, fun _ => 0, ρ⟩ (fun r => ∀ c : Dev nD,
      r.2.mem ((c.tc : Thread nD τ).loc main_v33) = (dat1 (U2 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have k := arg_kept m c (h c)
    ⟨(h c _ (Finset.mem_filter.mpr ⟨StableHlo.devRef_mem_tcRefs main_v33, by decide⟩)).trans
        (Pipeline.withArrays_arr spec1 launch1.win.arr_inj c _ _ 8),
     k main_arg0 (by decide), k main_arg1 (by decide), k main_arg2 (by decide), k main_arg3 (by decide), k main_arg4 (by decide),
     k main_arg5 (by decide), k main_arg6 (by decide), k main_arg7 (by decide), k main_arg8 (by decide), k main_arg9 (by decide),
     k main_arg10 (by decide), k main_arg11 (by decide), k main_arg12 (by decide)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (value_run m ρ)

end Cert.KernelIdeal.Fr

end
-- ==== Proof.KI.R0Pieces.lean ====
import proofs.«412247_j45363444580421_3_alg».proof.Proof.KI.R0Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

abbrev slice0 (i : grid0.Coords) (x1 : Vec F S16384x64 .f32) : Vec F S4096x64 .f32 :=
  View.ld x1 (Rect.unit (s := S16384x64) (k0_off1 i) S4096x64.size (k0_off1_inb i))

variable (c : Dev nD) (M : Mem0) (X : In0 F)

set_option maxHeartbeats 400000 in
/-- Each case's outputs in closed form: unfold the run and read its pieces. -/
theorem out0_B_eq (hc0 : ¬cond0_0 M.i) (hc1 : ¬cond0_1 M.i) (xs0 : Vec F S512x64 .f32) :
    (out0_B c M X hc0 hc1 xs0).2.2 = k0_pay2 (slice0 M.i X.x1) xs0 X.x5 := by
  unfold out0_B kernelRun0_B slice0
  dsimp only
  sl_unfold_words
  rw [View.canon_unit_zero hz]
  simp only [View.readAt_eq_ld, M.h2.read_unread, M.h3.read_unread, M.h4.read_unread, M.h5.read_unread, M.h6.read_unread, M.h7.read_unread, M.h8.read_unread, M.h11.read_unread, View.readCov_unit_zero (S := S512x64) _ hz, View.ld_unit_zero (S := S512x64) hz, View.ld_unit_zero (S := S64x64) hz, View.ld_unit_zero (S := S512x4096) hz]

set_option maxHeartbeats 400000 in
theorem out0_A_eq (hc0 : cond0_0 M.i) (hc1 : ¬cond0_1 M.i) :
    (out0_A c M X hc0 hc1).2.2 = k0_pay2 (slice0 M.i X.x1) (k0_pay1 X.x0 X.x2) X.x5 := by
  unfold out0_A kernelRun0_A slice0
  dsimp only
  sl_unfold_words
  rw [View.canon_cons_unit_zero (S := S512x64) hz, View.readCov_unit_zero (S := S512x64) _ hz]
  simp only [View.readAt_eq_ld, M.h2.read_unread, M.h3.read_unread, M.h4.read_unread, M.h5.read_unread, M.h6.read_unread, M.h7.read_unread, M.h8.read_unread, M.h11.read_unread, View.readCov_unit_zero (S := S512x64) _ hz, View.ld_unit_zero (S := S512x64) hz, View.ld_unit_zero (S := S64x64) hz, View.ld_unit_zero (S := S512x4096) hz]

set_option maxHeartbeats 400000 in
theorem out0_C_eq (hc0 : ¬cond0_0 M.i) (hc1 : cond0_1 M.i) (xs0 : Vec F S512x64 .f32) :
    out0_C c M X hc0 hc1 xs0 = (k0_pay3 (k0_pay2 (slice0 M.i X.x1) xs0 X.x5) X.x3 X.x4, k0_pay4 (k0_pay2 (slice0 M.i X.x1) xs0 X.x5) X.x3 X.x4 X.x6, k0_pay2 (slice0 M.i X.x1) xs0 X.x5) := by
  unfold out0_C kernelRun0_C slice0
  dsimp only
  sl_unfold_words
  rw [View.canon_unit_zero hz, View.canon_unit_zero hz, View.canon_unit_zero hz]
  simp only [View.readAt_eq_ld, M.h2.read_unread, M.h3.read_unread, M.h4.read_unread, M.h5.read_unread, M.h6.read_unread, M.h7.read_unread, M.h8.read_unread, M.h11.read_unread, View.readCov_unit_zero (S := S512x64) _ hz, View.ld_unit_zero (S := S512x64) hz, View.ld_unit_zero (S := S64x64) hz, View.ld_unit_zero (S := S512x4096) hz]

end Cert.KernelIdeal.Fr

end
-- ==== Proof.Spec.lean ====
import Idealize.ShloMosaic.PureOps.Ideal
import Idealize.ShloMosaic.Lib.ValueIdx
import Mathlib.Algebra.BigOperators.Fin
import Mathlib.Data.Fintype.BigOperators

noncomputable section

namespace Cert.Spec

open Idealize.ShloMosaic

abbrev Mat (a b : ℕ) : Type := Fin a → Fin b → EReal

def m2 {a b : ℕ} (X : (⟨2, ![a, b]⟩ : Shape).Idx → EReal) : Mat a b := fun i j => X (ValueIdx.ix2 i j)

def v1 {a : ℕ} (X : (⟨1, ![a]⟩ : Shape).Idx → EReal) : Fin a → EReal := fun i => X (ValueIdx.ix1 i)

theorem m2_apply {a b : ℕ} (X : (⟨2, ![a, b]⟩ : Shape).Idx → EReal) (i : Fin a) (j : Fin b) : m2 X i j = X (ValueIdx.ix2 i j) := rfl
theorem v1_apply {a : ℕ} (X : (⟨1, ![a]⟩ : Shape).Idx → EReal) (i : Fin a) : v1 X i = X (ValueIdx.ix1 i) := rfl

def mm {a b c : ℕ} (X : Mat a b) (Y : Mat b c) : Mat a c := fun i j => ∑ d : Fin b, X i d * Y d j

def conv (h : Mat 16384 64) (A : Mat 16384 16384) (W : Mat 64 64) (hL : Mat 16384 64) (rw rb : Mat 16384 64) :
    Mat 16384 64 :=
  fun i j => max ((mm h W i j + mm A hL i j) * rw i j + rb i j) 0

def readout (x : Mat 16384 64) (Wout : Mat 8 64) (bout : Fin 8 → EReal) : Mat 16384 8 :=
  fun i o => (∑ d : Fin 64, x i d * Wout o d) + bout o

def tileIdx (k : Fin 4) (l : Fin 4096) : Fin 16384 := ⟨4096 * k.val + l.val, by omega⟩

@[simp] theorem tileIdx_val (k : Fin 4) (l : Fin 4096) : (tileIdx k l).val = 4096 * k.val + l.val := rfl

def tile (A : Mat 16384 16384) (hL : Mat 16384 64) (k : Fin 4) : Mat 16384 64 :=
  fun i j => ∑ l : Fin 4096, A i (tileIdx k l) * hL (tileIdx k l) j

theorem sum_tiles {M : Type} [AddCommMonoid M] (m n : ℕ) (f : Fin (m * n) → M) :
    ∑ l : Fin (m * n), f l = ∑ k : Fin m, ∑ l : Fin n, f (finProdFinEquiv (k, l)) := by
  rw [← Fintype.sum_prod_type (f := fun p : Fin m × Fin n => f (finProdFinEquiv p))]
  exact (Fintype.sum_equiv finProdFinEquiv _ _ (fun _ => rfl)).symm

theorem mm_eq_tiles (A : Mat 16384 16384) (hL : Mat 16384 64) (i : Fin 16384) (j : Fin 64) :
    mm A hL i j = tile A hL 0 i j + tile A hL 1 i j + tile A hL 2 i j + tile A hL 3 i j := by
  unfold mm tile
  rw [show (∑ d : Fin 16384, A i d * hL d j) = ∑ d : Fin (4 * 4096), A i (Fin.cast (by norm_num) d) * hL (Fin.cast (by norm_num) d) j from
      (Fintype.sum_equiv (finCongr (by norm_num : 16384 = 4 * 4096)) _ _ (fun _ => rfl)),
    sum_tiles 4 4096, Fin.sum_univ_four]
  have e : ∀ (k : Fin 4) (l : Fin 4096), Fin.cast (by norm_num : 4 * 4096 = 16384) (finProdFinEquiv (k, l)) = tileIdx k l := by
    intro k l; apply Fin.ext; simp [finProdFinEquiv, tileIdx]; omega
  simp only [e]

theorem acc4_eq (h : Mat 16384 64) (A : Mat 16384 16384) (W : Mat 64 64) (hL : Mat 16384 64) (i : Fin 16384) (j : Fin 64) :
    mm h W i j + tile A hL 0 i j + tile A hL 1 i j + tile A hL 2 i j + tile A hL 3 i j = mm h W i j + mm A hL i j := by
  rw [mm_eq_tiles]; simp only [add_assoc]

def accUpTo (h : Mat 16384 64) (A : Mat 16384 16384) (W : Mat 64 64) (hL : Mat 16384 64) : ℕ → Mat 16384 64
  | 0 => fun i j => mm h W i j + tile A hL 0 i j
  | n + 1 => fun i j => accUpTo h A W hL n i j + (if hn : n + 1 < 4 then tile A hL ⟨n + 1, hn⟩ i j else 0)

theorem accUpTo_three (h : Mat 16384 64) (A : Mat 16384 16384) (W : Mat 64 64) (hL : Mat 16384 64) (i : Fin 16384) (j : Fin 64) :
    accUpTo h A W hL 3 i j = mm h W i j + mm A hL i j := by
  rw [← acc4_eq]; simp [accUpTo]

end Cert.Spec

end
-- ==== Proof.KI.Val0a.lean ====
import proofs.«412247_j45363444580421_3_alg».proof.Proof.KI.R0Runs
import proofs.«412247_j45363444580421_3_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem idx0_0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)
theorem idx0_4 : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)
theorem idx0_5 : ∀ t : Fin cfg0.N, win0_5.index t (0 : Fin 2) = t.val / 4 ∧ win0_5.index t (1 : Fin 2) = t.val % 4 :=
  (by decide +kernel : ∀ t : Fin grid0.N, win0_5.index t (0 : Fin 2) = t.val / 4 ∧ win0_5.index t (1 : Fin 2) = t.val % 4)
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx0_7 : ∀ t : Fin cfg0.N, win0_7.index t (0 : Fin 2) = t.val / 4 ∧ win0_7.index t (1 : Fin 2) = 0 :=
  (by decide +kernel : ∀ t : Fin grid0.N, win0_7.index t (0 : Fin 2) = t.val / 4 ∧ win0_7.index t (1 : Fin 2) = 0)
theorem idx0_8 : ∀ t : Fin cfg0.N, win0_8.index t (0 : Fin 2) = t.val / 4 ∧ win0_8.index t (1 : Fin 2) = 0 :=
  (by decide +kernel : ∀ t : Fin grid0.N, win0_8.index t (0 : Fin 2) = t.val / 4 ∧ win0_8.index t (1 : Fin 2) = 0)

theorem coord1 : ∀ t : Fin cfg0.N, ((grid0.coords t) 1).val = t.val % 4 :=
  (by decide +kernel : ∀ t : Fin grid0.N, ((grid0.coords t) 1).val = t.val % 4)

theorem N128 : cfg0.N = 128 := N_0

abbrev rowOf (t : Fin cfg0.N) (r : Fin 512) : Fin 16384 :=
  ⟨512 * (t.val / 4) + r.val, by have := t.isLt; have := N128; omega⟩

abbrev colOf (t : Fin cfg0.N) (l : Fin 4096) : Fin 16384 := ⟨4096 * (t.val % 4) + l.val, by omega⟩

abbrev arrH (c : Dev nD) : Vec Ideal S16384x64 .f32 := V c main_arg0
abbrev arrHL (c : Dev nD) : Vec Ideal S16384x64 .f32 := V c main_v31
abbrev arrW (c : Dev nD) : Vec Ideal S64x64 .f32 := V c main_arg3
abbrev arrRW (c : Dev nD) : Vec Ideal S16384x64 .f32 := V c main_v7
abbrev arrRB (c : Dev nD) : Vec Ideal S16384x64 .f32 := V c main_v14
abbrev arrA (c : Dev nD) : Vec Ideal S16384x16384 .f32 := V c main_arg1
abbrev arrLN (c : Dev nD) : Vec Ideal S64x64 .f32 := V c main_arg8

abbrev blkH (c : Dev nD) (t : Fin cfg0.N) : Vec Ideal S512x64 .f32 := iblk0 V c 0 t
abbrev blkHL (c : Dev nD) (t : Fin cfg0.N) : Vec Ideal S16384x64 .f32 := iblk0 V c 1 t
abbrev blkW (c : Dev nD) (t : Fin cfg0.N) : Vec Ideal S64x64 .f32 := iblk0 V c 2 t
abbrev blkRW (c : Dev nD) (t : Fin cfg0.N) : Vec Ideal S512x64 .f32 := iblk0 V c 3 t
abbrev blkRB (c : Dev nD) (t : Fin cfg0.N) : Vec Ideal S512x64 .f32 := iblk0 V c 4 t
abbrev blkA (c : Dev nD) (t : Fin cfg0.N) : Vec Ideal S512x4096 .f32 := iblk0 V c 5 t
abbrev blkLN (c : Dev nD) (t : Fin cfg0.N) : Vec Ideal S64x64 .f32 := iblk0 V c 6 t

theorem blkH_apply (c : Dev nD) (t : Fin cfg0.N) (r : Fin 512) (j : Fin 64) :
    blkH V c t (ix2 r j) = arrH V c (ix2 (rowOf t r) j) := by
  unfold blkH iblk0
  rw [View.read_apply]
  show V c main_arg0 _ = V c main_arg0 _
  congr 1
  funext a
  apply Fin.ext
  match a with
  | ⟨0, _⟩ => show win0_0.index t 0 * 512 + 1 * r.val = 512 * (t.val / 4) + r.val; rw [(idx0_0 t).1]; omega
  | ⟨1, _⟩ => show win0_0.index t 1 * 64 + 1 * j.val = j.val; rw [(idx0_0 t).2]; omega

theorem blkRW_apply (c : Dev nD) (t : Fin cfg0.N) (r : Fin 512) (j : Fin 64) :
    blkRW V c t (ix2 r j) = arrRW V c (ix2 (rowOf t r) j) := by
  unfold blkRW iblk0
  rw [View.read_apply]
  show V c main_v7 _ = V c main_v7 _
  congr 1
  funext a
  apply Fin.ext
  match a with
  | ⟨0, _⟩ => show win0_3.index t 0 * 512 + 1 * r.val = 512 * (t.val / 4) + r.val; rw [(idx0_3 t).1]; omega
  | ⟨1, _⟩ => show win0_3.index t 1 * 64 + 1 * j.val = j.val; rw [(idx0_3 t).2]; omega

theorem blkRB_apply (c : Dev nD) (t : Fin cfg0.N) (r : Fin 512) (j : Fin 64) :
    blkRB V c t (ix2 r j) = arrRB V c (ix2 (rowOf t r) j) := by
  unfold blkRB iblk0
  rw [View.read_apply]
  show V c main_v14 _ = V c main_v14 _
  congr 1
  funext a
  apply Fin.ext
  match a with
  | ⟨0, _⟩ => show win0_4.index t 0 * 512 + 1 * r.val = 512 * (t.val / 4) + r.val; rw [(idx0_4 t).1]; omega
  | ⟨1, _⟩ => show win0_4.index t 1 * 64 + 1 * j.val = j.val; rw [(idx0_4 t).2]; omega

theorem blkA_apply (c : Dev nD) (t : Fin cfg0.N) (r : Fin 512) (l : Fin 4096) :
    blkA V c t (ix2 r l) = arrA V c (ix2 (rowOf t r) (colOf t l)) := by
  unfold blkA iblk0
  rw [View.read_apply]
  show V c main_arg1 _ = V c main_arg1 _
  congr 1
  funext a
  apply Fin.ext
  match a with
  | ⟨0, _⟩ => show win0_5.index t 0 * 512 + 1 * r.val = 512 * (t.val / 4) + r.val; rw [(idx0_5 t).1]; omega
  | ⟨1, _⟩ => show win0_5.index t 1 * 4096 + 1 * l.val = 4096 * (t.val % 4) + l.val; rw [(idx0_5 t).2]; omega

theorem blkHL_eq (c : Dev nD) (t : Fin cfg0.N) : blkHL V c t = arrHL V c := by
  funext y
  obtain ⟨l, j, rfl⟩ : ∃ (l : Fin 16384) (j : Fin 64), y = ix2 l j := ⟨y 0, y 1, eq_ix2 y⟩
  unfold blkHL iblk0
  rw [View.read_apply]
  show V c main_v31 _ = V c main_v31 _
  congr 1
  funext a
  apply Fin.ext
  match a with
  | ⟨0, _⟩ => show win0_1.index t 0 * 16384 + 1 * l.val = l.val; rw [(idx0_1 t).1]; omega
  | ⟨1, _⟩ => show win0_1.index t 1 * 64 + 1 * j.val = j.val; rw [(idx0_1 t).2]; omega

theorem blkW_eq (c : Dev nD) (t : Fin cfg0.N) : blkW V c t = arrW V c := by
  funext y
  obtain ⟨l, j, rfl⟩ : ∃ (l : Fin 64) (j : Fin 64), y = ix2 l j := ⟨y 0, y 1, eq_ix2 y⟩
  unfold blkW iblk0
  rw [View.read_apply]
  show V c main_arg3 _ = V c main_arg3 _
  congr 1
  funext a
  apply Fin.ext
  match a with
  | ⟨0, _⟩ => show win0_2.index t 0 * 64 + 1 * l.val = l.val; rw [(idx0_2 t).1]; omega
  | ⟨1, _⟩ => show win0_2.index t 1 * 64 + 1 * j.val = j.val; rw [(idx0_2 t).2]; omega

theorem blkLN_eq (c : Dev nD) (t : Fin cfg0.N) : blkLN V c t = arrLN V c := by
  funext y
  obtain ⟨l, j, rfl⟩ : ∃ (l : Fin 64) (j : Fin 64), y = ix2 l j := ⟨y 0, y 1, eq_ix2 y⟩
  unfold blkLN iblk0
  rw [View.read_apply]
  show V c main_arg8 _ = V c main_arg8 _
  congr 1
  funext a
  apply Fin.ext
  match a with
  | ⟨0, _⟩ => show win0_6.index t 0 * 64 + 1 * l.val = l.val; rw [(idx0_6 t).1]; omega
  | ⟨1, _⟩ => show win0_6.index t 1 * 64 + 1 * j.val = j.val; rw [(idx0_6 t).2]; omega

theorem slice_apply (x1 : Vec Ideal S16384x64 .f32) (i : grid0.Coords) (l : Fin 4096) (j : Fin 64) :
    (View.ld x1 (Rect.unit (s := S16384x64) (k0_off1 i) S4096x64.size (k0_off1_inb i)) : Vec Ideal S4096x64 .f32) (ix2 l j)
      = x1 (ix2 ⟨4096 * (i 1).val + l.val, by have h : (i 1).val < 4 := (i 1).isLt; omega⟩ j) := by
  show x1 _ = x1 _
  congr 1
  funext a
  apply Fin.ext
  match a with
  | ⟨0, _⟩ => show (k0_off1 i) 0 + 1 * l.val = 4096 * (i 1).val + l.val; rw [k0_off1_eq i]; show 4096 * (i 1).val + 1 * l.val = _; omega
  | ⟨1, _⟩ => show (k0_off1 i) 1 + 1 * j.val = j.val; rw [k0_off1_eq i]; show 0 + 1 * j.val = _; omega

theorem slice_at (x1 : Vec Ideal S16384x64 .f32) (t : Fin cfg0.N) (l : Fin 4096) (j : Fin 64) :
    (View.ld x1 (Rect.unit (s := S16384x64) (k0_off1 (grid0.coords t)) S4096x64.size (k0_off1_inb (grid0.coords t))) : Vec Ideal S4096x64 .f32) (ix2 l j)
      = x1 (ix2 (colOf t l) j) := by
  rw [slice_apply]
  congr 2
  apply Fin.ext
  show 4096 * ((grid0.coords t) 1).val + l.val = 4096 * (t.val % 4) + l.val
  rw [coord1 t]

end Cert.KernelIdeal.Val

end
-- ==== Proof.KI.Pay0.lean ====
import proofs.«412247_j45363444580421_3_alg».proof.Proof.Gen.KernelIdeal.Skeleton
import proofs.«412247_j45363444580421_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Idealize.SL.Sem

/-- A product into the zero block over one contracted axis of extent n: the sum re-indexed by that axis's coordinate, at
    operand indices the caller names. -/
theorem mm_apply_of {sl sr so : Shape} {φ₁ φ₂ : FTy} (D : DotDims sl sr so) (n : ℕ) (hr : D.contr.rank = 1)
    (hs : D.contr.size ⟨0, by omega⟩ = n) (A : FVec Ideal sl φ₁) (B : FVec Ideal sr φ₂) (j : so.Idx)
    (L : Fin n → sl.Idx) (R : Fin n → sr.Idx) (hL : ∀ d, D.lhsIdx j ((contrEquiv1 D n hr hs).symm d) = L d)
    (hR : ∀ d, D.rhsIdx j ((contrEquiv1 D n hr hs).symm d) = R d) :
    FloatOps.matmul D none A B (constant so .f32 0x00000000#32) j = ∑ d : Fin n, A (L d) * B (R d) := by
  rw [Ideal.matmul_constant_zero_apply, ← Equiv.sum_comp (contrEquiv1 D n hr hs).symm]
  exact Finset.sum_congr rfl fun d _ => by rw [hL d, hR d]

theorem mm_d64_apply {φ₁ φ₂ : FTy} (A : FVec Ideal S512x64 φ₁) (B : FVec Ideal S64x64 φ₂) (r : Fin 512) (j : Fin 64) :
    FloatOps.matmul dot_S512x64_S64x64_S512x64_1_0_0_1_n_n none A B (constant S512x64 .f32 0x00000000#32) (ix2 r j)
      = ∑ d : Fin 64, A (ix2 r d) * B (ix2 d j) :=
  mm_apply_of _ 64 rfl rfl A B _ (ix2 r ·) (ix2 · j) (fun _ => (eq_ix2 _).trans rfl) fun _ => (eq_ix2 _).trans rfl

theorem mm_d4096_apply {φ₁ φ₂ : FTy} (A : FVec Ideal S512x4096 φ₁) (B : FVec Ideal S4096x64 φ₂) (r : Fin 512) (j : Fin 64) :
    FloatOps.matmul dot_S512x4096_S4096x64_S512x64_1_0_0_1_n_n none A B (constant S512x64 .f32 0x00000000#32) (ix2 r j)
      = ∑ d : Fin 4096, A (ix2 r d) * B (ix2 d j) :=
  mm_apply_of _ 4096 rfl rfl A B _ (ix2 r ·) (ix2 · j) (fun _ => (eq_ix2 _).trans rfl) fun _ => (eq_ix2 _).trans rfl

theorem pay1_apply (v20 : Vec Ideal S512x64 .f32) (v22 : Vec Ideal S64x64 .f32) (r : Fin 512) (j : Fin 64) :
    Gen.k0_pay1 v20 v22 (ix2 r j) = ∑ d : Fin 64, v20 (ix2 r d) * v22 (ix2 d j) := by
  unfold Gen.k0_pay1
  simp only [shapeCast_self]
  exact mm_d64_apply (truncf .bf16 v20 bitsLt_bf16_f32) (truncf .bf16 v22 bitsLt_bf16_f32) r j

theorem pay2_apply (v6 : Vec Ideal S4096x64 .f32) (v8 : Vec Ideal S512x64 .f32) (v9 : Vec Ideal S512x4096 .f32)
    (r : Fin 512) (j : Fin 64) :
    Gen.k0_pay2 v6 v8 v9 (ix2 r j) = v8 (ix2 r j) + ∑ l : Fin 4096, v9 (ix2 r l) * v6 (ix2 l j) := by
  unfold Gen.k0_pay2
  simp only [shapeCast_self]
  rw [addf_apply]
  exact congrArg (v8 (ix2 r j) + ·) (mm_d4096_apply (truncf .bf16 v9 bitsLt_bf16_f32) (truncf .bf16 v6 bitsLt_bf16_f32) r j)

theorem pay3_apply (v20 v21 v24 : Vec Ideal S512x64 .f32) (r : Fin 512) (j : Fin 64) :
    Gen.k0_pay3 v20 v21 v24 (ix2 r j) = max (v20 (ix2 r j) * v21 (ix2 r j) + v24 (ix2 r j)) 0 := by
  unfold Gen.k0_pay3
  simp only [shapeCast_self]
  rw [maximumf_apply, addf_apply, mulf_apply, broadcast_apply]
  exact congrArg (max _ ·) Ideal.ofBits_zero_f32

theorem pay4_apply (v20 v21 v24 : Vec Ideal S512x64 .f32) (v31 : Vec Ideal S64x64 .f32) (r : Fin 512) (j : Fin 64) :
    Gen.k0_pay4 v20 v21 v24 v31 (ix2 r j) = ∑ d : Fin 64, Gen.k0_pay3 v20 v21 v24 (ix2 r d) * v31 (ix2 d j) := by
  unfold Gen.k0_pay4
  exact mm_d64_apply (truncf .bf16 (Gen.k0_pay3 v20 v21 v24) bitsLt_bf16_f32) (truncf .bf16 v31 bitsLt_bf16_f32) r j

end Cert.KernelIdeal.PayValue

end
-- ==== Proof.KI.Val0b.lean ====
import proofs.«412247_j45363444580421_3_alg».proof.Proof.KI.Pay0
import proofs.«412247_j45363444580421_3_alg».proof.Proof.Spec
import Idealize.ShloMosaic.Lib.ValueIdx

noncomputable section

namespace Cert.KernelIdeal.Val

open Cert.KernelIdeal Cert.KernelIdeal.Gen Cert.KernelIdeal.PayValue
open Idealize.ShloMosaic Idealize.ShloMosaic.ValueIdx Idealize.SL.Sem
open Cert.Spec (Mat mm conv tile tileIdx accUpTo)

variable (H : Mat 16384 64) (A : Mat 16384 16384) (W : Mat 64 64) (HL : Mat 16384 64) (RW RB : Mat 16384 64) (LN : Mat 64 64)

theorem accUpTo_zero (i : Fin 16384) (j : Fin 64) : accUpTo H A W HL 0 i j = mm H W i j + tile A HL 0 i j := rfl

theorem accUpTo_succ (n : ℕ) (hn : n + 1 < 4) (i : Fin 16384) (j : Fin 64) :
    accUpTo H A W HL (n + 1) i j = accUpTo H A W HL n i j + tile A HL ⟨n + 1, hn⟩ i j := by
  show accUpTo H A W HL n i j + (if h : n + 1 < 4 then tile A HL ⟨n + 1, h⟩ i j else 0) = _
  rw [dif_pos hn]

theorem tile_sum (k : Fin 4) (i : Fin 16384) (v6 : Vec Ideal S4096x64 .f32) (x5 : Vec Ideal S512x4096 .f32)
    (r : Fin 512) (j : Fin 64) (h6 : ∀ l, v6 (ix2 l j) = HL (tileIdx k l) j) (h5 : ∀ l, x5 (ix2 r l) = A i (tileIdx k l)) :
    (∑ l : Fin 4096, x5 (ix2 r l) * v6 (ix2 l j)) = tile A HL k i j := by
  unfold tile
  exact Finset.sum_congr rfl fun l _ => by rw [h5 l, h6 l]

theorem step_first (i : Fin 16384) (x0 : Vec Ideal S512x64 .f32) (x2 : Vec Ideal S64x64 .f32)
    (v6 : Vec Ideal S4096x64 .f32) (x5 : Vec Ideal S512x4096 .f32) (r : Fin 512) (j : Fin 64)
    (h0 : ∀ d, x0 (ix2 r d) = H i d) (h2 : ∀ d, x2 (ix2 d j) = W d j)
    (h6 : ∀ l, v6 (ix2 l j) = HL (tileIdx 0 l) j) (h5 : ∀ l, x5 (ix2 r l) = A i (tileIdx 0 l)) :
    k0_pay2 v6 (k0_pay1 x0 x2) x5 (ix2 r j) = accUpTo H A W HL 0 i j := by
  refine (pay2_apply v6 (k0_pay1 x0 x2) x5 r j).trans ?_
  rw [accUpTo_zero, tile_sum A HL 0 i v6 x5 r j h6 h5]
  refine congrArg (· + tile A HL 0 i j) ?_
  refine (pay1_apply x0 x2 r j).trans ?_
  unfold mm
  exact Finset.sum_congr rfl fun d _ => by rw [h0 d, h2 d]

theorem step_next (n : ℕ) (hn : n + 1 < 4) (i : Fin 16384) (xs0 : Vec Ideal S512x64 .f32)
    (v6 : Vec Ideal S4096x64 .f32) (x5 : Vec Ideal S512x4096 .f32) (r : Fin 512) (j : Fin 64)
    (hs : xs0 (ix2 r j) = accUpTo H A W HL n i j)
    (h6 : ∀ l, v6 (ix2 l j) = HL (tileIdx ⟨n + 1, hn⟩ l) j) (h5 : ∀ l, x5 (ix2 r l) = A i (tileIdx ⟨n + 1, hn⟩ l)) :
    k0_pay2 v6 xs0 x5 (ix2 r j) = accUpTo H A W HL (n + 1) i j := by
  refine (pay2_apply v6 xs0 x5 r j).trans ?_
  rw [accUpTo_succ H A W HL n hn, tile_sum A HL ⟨n + 1, hn⟩ i v6 x5 r j h6 h5, hs]

theorem epilogue (i : Fin 16384) (v20 x3 x4 : Vec Ideal S512x64 .f32) (r : Fin 512) (j : Fin 64)
    (hs : v20 (ix2 r j) = accUpTo H A W HL 3 i j) (h3 : x3 (ix2 r j) = RW i j) (h4 : x4 (ix2 r j) = RB i j) :
    k0_pay3 v20 x3 x4 (ix2 r j) = conv H A W HL RW RB i j := by
  refine (pay3_apply v20 x3 x4 r j).trans ?_
  rw [hs, h3, h4, Cert.Spec.accUpTo_three]
  rfl

theorem next_operand (i : Fin 16384) (v20 x3 x4 : Vec Ideal S512x64 .f32) (x6 : Vec Ideal S64x64 .f32) (r : Fin 512) (j : Fin 64)
    (hs : ∀ d, v20 (ix2 r d) = accUpTo H A W HL 3 i d) (h3 : ∀ d, x3 (ix2 r d) = RW i d) (h4 : ∀ d, x4 (ix2 r d) = RB i d)
    (h6 : ∀ d, x6 (ix2 d j) = LN d j) :
    k0_pay4 v20 x3 x4 x6 (ix2 r j) = mm (conv H A W HL RW RB) LN i j := by
  refine (pay4_apply v20 x3 x4 x6 r j).trans ?_
  unfold mm
  exact Finset.sum_congr rfl fun d _ => by
    rw [epilogue H A W HL RW RB i v20 x3 x4 r d (hs d) (h3 d) (h4 d), h6 d]

end Cert.KernelIdeal.Val

end
-- ==== Proof.KI.Val0c.lean ====
import proofs.«412247_j45363444580421_3_alg».proof.Proof.KI.Val0a
import proofs.«412247_j45363444580421_3_alg».proof.Proof.KI.Val0b

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.ValueIdx
open Cert.Spec (Mat mm conv tile tileIdx accUpTo)

variable (V : (c : Dev nD) → (b : Ref sig .tc) → Buf (Elt Ideal) ((c : Thread nD τ).loc b))

abbrev mH (c : Dev nD) : Mat 16384 64 := Cert.Spec.m2 (arrH V c)
abbrev mHL (c : Dev nD) : Mat 16384 64 := Cert.Spec.m2 (arrHL V c)
abbrev mW (c : Dev nD) : Mat 64 64 := Cert.Spec.m2 (arrW V c)
abbrev mRW (c : Dev nD) : Mat 16384 64 := Cert.Spec.m2 (arrRW V c)
abbrev mRB (c : Dev nD) : Mat 16384 64 := Cert.Spec.m2 (arrRB V c)
abbrev mA (c : Dev nD) : Mat 16384 16384 := Cert.Spec.m2 (arrA V c)
abbrev mLN (c : Dev nD) : Mat 64 64 := Cert.Spec.m2 (arrLN V c)

abbrev accAt (c : Dev nD) (k : ℕ) : Mat 16384 64 := accUpTo (mH V c) (mA V c) (mW V c) (mHL V c) k

abbrev convAt (c : Dev nD) : Mat 16384 64 := conv (mH V c) (mA V c) (mW V c) (mHL V c) (mRW V c) (mRB V c)

abbrev nextAt (c : Dev nD) : Mat 16384 64 := mm (convAt V c) (mLN V c)

abbrev sliceHL (c : Dev nD) (t : Fin cfg0.N) : Vec Ideal S4096x64 .f32 :=
  View.ld (blkHL V c t) (Rect.unit (s := S16384x64) (k0_off1 (grid0.coords t)) S4096x64.size (k0_off1_inb (grid0.coords t)))

theorem sliceHL_apply (c : Dev nD) (t : Fin cfg0.N) (k : Fin 4) (hk : t.val % 4 = k.val) (l : Fin 4096) (j : Fin 64) :
    sliceHL V c t (ix2 l j) = mHL V c (tileIdx k l) j := by
  refine (slice_at (blkHL V c t) t l j).trans ?_
  rw [blkHL_eq]
  show arrHL V c (ix2 (colOf t l) j) = arrHL V c (ix2 (tileIdx k l) j)
  congr 2
  apply Fin.ext
  show 4096 * (t.val % 4) + l.val = 4096 * k.val + l.val
  rw [hk]

theorem blkA_tile (c : Dev nD) (t : Fin cfg0.N) (k : Fin 4) (hk : t.val % 4 = k.val) (r : Fin 512) (l : Fin 4096) :
    blkA V c t (ix2 r l) = mA V c (rowOf t r) (tileIdx k l) := by
  refine (blkA_apply V c t r l).trans ?_
  show arrA V c (ix2 (rowOf t r) (colOf t l)) = arrA V c (ix2 (rowOf t r) (tileIdx k l))
  congr 2
  apply Fin.ext
  show 4096 * (t.val % 4) + l.val = 4096 * k.val + l.val
  rw [hk]

theorem acc_first (c : Dev nD) (t : Fin cfg0.N) (h0 : t.val % 4 = 0) (r : Fin 512) (j : Fin 64) :
    k0_pay2 (sliceHL V c t) (k0_pay1 (blkH V c t) (blkW V c t)) (blkA V c t) (ix2 r j) = accAt V c 0 (rowOf t r) j :=
  step_first (mH V c) (mA V c) (mW V c) (mHL V c) (rowOf t r) (blkH V c t) (blkW V c t) (sliceHL V c t) (blkA V c t) r j
    (fun d => blkH_apply V c t r d) (fun d => by rw [blkW_eq]; rfl)
    (fun l => sliceHL_apply V c t 0 h0 l j) (fun l => blkA_tile V c t 0 h0 r l)

theorem acc_next (c : Dev nD) (t : Fin cfg0.N) (k : ℕ) (hk : k + 1 < 4) (ht : t.val % 4 = k + 1)
    (xs0 : Vec Ideal S512x64 .f32) (r : Fin 512) (j : Fin 64) (hs : xs0 (ix2 r j) = accAt V c k (rowOf t r) j) :
    k0_pay2 (sliceHL V c t) xs0 (blkA V c t) (ix2 r j) = accAt V c (k + 1) (rowOf t r) j :=
  step_next (mH V c) (mA V c) (mW V c) (mHL V c) k hk (rowOf t r) xs0 (sliceHL V c t) (blkA V c t) r j hs
    (fun l => sliceHL_apply V c t ⟨k + 1, hk⟩ ht l j) (fun l => blkA_tile V c t ⟨k + 1, hk⟩ ht r l)

theorem out7_point (c : Dev nD) (t : Fin cfg0.N) (xs : Vec Ideal S512x64 .f32) (r : Fin 512) (j : Fin 64)
    (hs : xs (ix2 r j) = accAt V c 3 (rowOf t r) j) :
    k0_pay3 xs (blkRW V c t) (blkRB V c t) (ix2 r j) = convAt V c (rowOf t r) j :=
  epilogue (mH V c) (mA V c) (mW V c) (mHL V c) (mRW V c) (mRB V c) (rowOf t r) xs (blkRW V c t) (blkRB V c t) r j hs
    (blkRW_apply V c t r j) (blkRB_apply V c t r j)

theorem out8_point (c : Dev nD) (t : Fin cfg0.N) (xs : Vec Ideal S512x64 .f32) (r : Fin 512) (j : Fin 64)
    (hs : ∀ d, xs (ix2 r d) = accAt V c 3 (rowOf t r) d) :
    k0_pay4 xs (blkRW V c t) (blkRB V c t) (blkLN V c t) (ix2 r j) = nextAt V c (rowOf t r) j :=
  next_operand (mH V c) (mA V c) (mW V c) (mHL V c) (mRW V c) (mRB V c) (mLN V c) (rowOf t r) xs (blkRW V c t) (blkRB V c t)
    (blkLN V c t) r j hs (fun d => blkRW_apply V c t r d) (fun d => blkRB_apply V c t r d) (fun d => by rw [blkLN_eq]; rfl)

end Cert.KernelIdeal.Val

end
-- ==== Proof.KI.Val0d.lean ====
import proofs.«412247_j45363444580421_3_alg».proof.Proof.KI.R0Pieces
import proofs.«412247_j45363444580421_3_alg».proof.Proof.KI.Val0c
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.ValueIdx
open Idealize.ShloMosaic.Pipeline (Dat)
open Cert.Spec (Mat mm conv tile tileIdx accUpTo)

variable (V : (c : Dev nD) → (b : Ref sig .tc) → Buf (Elt Ideal) ((c : Thread nD τ).loc b))

theorem scratch_A (c : Dev nD) (t : Fin cfg0.N) (h0 : t.val % 4 = 0) (r : Fin 512) (j : Fin 64) :
    (outsAt0 V c t.val t.isLt).2.2 (ix2 r j) = accAt V c 0 (rowOf t r) j := by
  rw [outsAt0_A V c t h0 (by omega), out0_A_eq]
  exact acc_first V c t h0 r j

/-- The middle and the last step change the scratch in the same way. -/
theorem scratch_step (c : Dev nD) (t : Fin cfg0.N) (k : ℕ) (hk : k + 1 < 4) (ht : t.val % 4 = k + 1) (r : Fin 512) (j : Fin 64)
    (hs : (prev0 V c t) (ix2 r j) = accAt V c k (rowOf t r) j) :
    (outsAt0 V c t.val t.isLt).2.2 (ix2 r j) = accAt V c (k + 1) (rowOf t r) j := by
  have h0 : ¬t.val % 4 = 0 := by omega
  have e : (outsAt0 V c t.val t.isLt).2.2 = k0_pay2 (slice0 (mem0 t).i (xin0 V c t).x1) (prev0 V c t) (xin0 V c t).x5 := by
    by_cases h1 : t.val % 4 = 3
    · rw [outsAt0_C V c t h0 h1, out0_C_eq]
    · rw [outsAt0_B V c t h0 h1, out0_B_eq]
  rw [e]
  exact acc_next V c t k hk ht (prev0 V c t) r j hs

/-- By induction on `n`: within a row tile each step appends the next column tile to the sum. -/
theorem scratch_eq (c : Dev nD) (n : ℕ) : ∀ (h : n < cfg0.N) (r : Fin 512) (j : Fin 64),
    (outsAt0 V c n h).2.2 (ix2 r j) = accAt V c (n % 4) (rowOf ⟨n, h⟩ r) j := by
  induction n with
  | zero => intro h r j; exact scratch_A V c ⟨0, h⟩ rfl r j
  | succ m ih =>
    intro h r j
    by_cases h0 : (m + 1) % 4 = 0
    · rw [h0]; exact scratch_A V c ⟨m + 1, h⟩ h0 r j
    · have hm : m < cfg0.N := Nat.lt_of_succ_lt h
      have hk : m % 4 + 1 < 4 := by omega
      have ht : (m + 1) % 4 = m % 4 + 1 := by omega
      have hrow : rowOf ⟨m, hm⟩ r = rowOf ⟨m + 1, h⟩ r :=
        Fin.ext (by show 512 * (m / 4) + r.val = 512 * ((m + 1) / 4) + r.val; omega)
      rw [ht]
      refine scratch_step V c ⟨m + 1, h⟩ (m % 4) hk ht r j ?_
      rw [← hrow]
      exact ih hm r j

theorem scratch_prev (c : Dev nD) (t : Fin cfg0.N) (k : ℕ) (ht : t.val % 4 = k + 1) (r : Fin 512) (j : Fin 64) :
    (prev0 V c t) (ix2 r j) = accAt V c k (rowOf t r) j := by
  have hlt : t.val - 1 < cfg0.N := Nat.lt_of_le_of_lt (Nat.sub_le _ _) t.isLt
  have e := scratch_eq V c (t.val - 1) hlt r j
  have e1 : (t.val - 1) % 4 = k := by omega
  have e2 : rowOf ⟨t.val - 1, hlt⟩ r = rowOf t r :=
    Fin.ext (by show 512 * ((t.val - 1) / 4) + r.val = 512 * (t.val / 4) + r.val; omega)
  rw [e1, e2] at e
  exact e

theorem acc_last (c : Dev nD) (t : Fin cfg0.N) (h3 : t.val % 4 = 3) (r : Fin 512) (j : Fin 64) :
    k0_pay2 (sliceHL V c t) (prev0 V c t) (blkA V c t) (ix2 r j) = accAt V c 3 (rowOf t r) j :=
  acc_next V c t 2 (by decide) h3 (prev0 V c t) r j (scratch_prev V c t 2 h3 r j)

theorem out7_eq (c : Dev nD) (t : Fin cfg0.N) (h3 : t.val % 4 = 3) (r : Fin 512) (j : Fin 64) :
    (outsAt0 V c t.val t.isLt).1 (ix2 r j) = convAt V c (rowOf t r) j := by
  rw [outsAt0_C V c t (by omega) h3, out0_C_eq]
  exact out7_point V c t (k0_pay2 (sliceHL V c t) (prev0 V c t) (blkA V c t)) r j (acc_last V c t h3 r j)

theorem out8_eq (c : Dev nD) (t : Fin cfg0.N) (h3 : t.val % 4 = 3) (r : Fin 512) (j : Fin 64) :
    (outsAt0 V c t.val t.isLt).2.1 (ix2 r j) = nextAt V c (rowOf t r) j := by
  rw [outsAt0_C V c t (by omega) h3, out0_C_eq]
  exact out8_point V c t (k0_pay2 (sliceHL V c t) (prev0 V c t) (blkA V c t)) r j (fun d => acc_last V c t h3 r d)

abbrev G7 (c : Dev nD) : Vec Ideal S16384x64 .f32 := fun i => convAt V c (i 0) (i 1)
abbrev G8 (c : Dev nD) : Vec Ideal S16384x64 .f32 := fun i => nextAt V c (i 0) (i 1)

theorem flushed7_eq (c : Dev nD) (t : Fin cfg0.N) (hf : (cfg0.win 7).flush t = true) :
    (dat0 V c).flushed 7 t = ((cfg0.win 7).blk t).view.read (Elt Ideal) (G7 V c) := by
  have h3 : t.val % 4 = 3 := (flush0_7 t).mp hf
  funext y
  obtain ⟨r, j, rfl⟩ : ∃ (r : Fin 512) (j : Fin 64), y = ix2 r j := ⟨y 0, y 1, eq_ix2 y⟩
  rw [View.read_apply]
  show (outsAt0 V c t.val t.isLt).1 (ix2 r j) = G7 V c (((cfg0.win 7).blk t).view.emb (ix2 r j))
  rw [out7_eq V c t h3 r j]
  show convAt V c (rowOf t r) j = convAt V c _ _
  congr 1 <;> apply Fin.ext
  · show 512 * (t.val / 4) + r.val = win0_7.index t 0 * 512 + 1 * r.val; rw [(idx0_7 t).1]; omega
  · show j.val = win0_7.index t 1 * 64 + 1 * j.val; rw [(idx0_7 t).2]; omega

theorem flushed8_eq (c : Dev nD) (t : Fin cfg0.N) (hf : (cfg0.win 8).flush t = true) :
    (dat0 V c).flushed 8 t = ((cfg0.win 8).blk t).view.read (Elt Ideal) (G8 V c) := by
  have h3 : t.val % 4 = 3 := (flush0_8 t).mp hf
  funext y
  obtain ⟨r, j, rfl⟩ : ∃ (r : Fin 512) (j : Fin 64), y = ix2 r j := ⟨y 0, y 1, eq_ix2 y⟩
  rw [View.read_apply]
  show (outsAt0 V c t.val t.isLt).2.1 (ix2 r j) = G8 V c (((cfg0.win 8).blk t).view.emb (ix2 r j))
  rw [out8_eq V c t h3 r j]
  show nextAt V c (rowOf t r) j = nextAt V c _ _
  congr 1 <;> apply Fin.ext
  · show 512 * (t.val / 4) + r.val = win0_8.index t 0 * 512 + 1 * r.val; rw [(idx0_8 t).1]; omega
  · show j.val = win0_8.index t 1 * 64 + 1 * j.val; rw [(idx0_8 t).2]; omega

abbrev lastOf (i0 : ℕ) (h : i0 < 16384) : Fin cfg0.N := ⟨4 * (i0 / 512) + 3, by rw [N128]; omega⟩

/-- Every index of an output array lies in the block stored at the last step of its row tile. -/
theorem final0_7 (c : Dev nD) : (dat0 V c).arrAt 7 cfg0.N = G7 V c :=
  (dat0 V c).arrAt_eq_of_cover 7 (G7 V c) (flushed7_eq V c) fun i => by
    have hi0 : (i 0 : Nat) < 16384 := (i 0).isLt
    have hi1 : (i 1 : Nat) < 64 := (i 1).isLt
    refine ⟨lastOf (i 0 : Nat) hi0, (flush0_7 _).mpr (by show (4 * ((i 0 : Nat) / 512) + 3) % 4 = 3; omega), ?_⟩
    show i ∈ ((View.whole main_v32_0).slice (win0_7.rect (lastOf (i 0 : Nat) hi0))).set
    rw [View.set_slice_whole, Rect.mem_set_unit]
    intro a
    match a with
    | ⟨0, _⟩ =>
      show win0_7.index (lastOf (i 0 : Nat) hi0) 0 * 512 ≤ (i 0 : Nat) ∧ (i 0 : Nat) < win0_7.index (lastOf (i 0 : Nat) hi0) 0 * 512 + 512
      rw [(idx0_7 _).1]
      show (4 * ((i 0 : Nat) / 512) + 3) / 4 * 512 ≤ (i 0 : Nat) ∧ (i 0 : Nat) < (4 * ((i 0 : Nat) / 512) + 3) / 4 * 512 + 512
      omega
    | ⟨1, _⟩ =>
      show win0_7.index (lastOf (i 0 : Nat) hi0) 1 * 64 ≤ (i 1 : Nat) ∧ (i 1 : Nat) < win0_7.index (lastOf (i 0 : Nat) hi0) 1 * 64 + 64
      rw [(idx0_7 _).2]
      omega

theorem final0_8 (c : Dev nD) : (dat0 V c).arrAt 8 cfg0.N = G8 V c :=
  (dat0 V c).arrAt_eq_of_cover 8 (G8 V c) (flushed8_eq V c) fun i => by
    have hi0 : (i 0 : Nat) < 16384 := (i 0).isLt
    have hi1 : (i 1 : Nat) < 64 := (i 1).isLt
    refine ⟨lastOf (i 0 : Nat) hi0, (flush0_8 _).mpr (by show (4 * ((i 0 : Nat) / 512) + 3) % 4 = 3; omega), ?_⟩
    show i ∈ ((View.whole main_v32_1).slice (win0_8.rect (lastOf (i 0 : Nat) hi0))).set
    rw [View.set_slice_whole, Rect.mem_set_unit]
    intro a
    match a with
    | ⟨0, _⟩ =>
      show win0_8.index (lastOf (i 0 : Nat) hi0) 0 * 512 ≤ (i 0 : Nat) ∧ (i 0 : Nat) < win0_8.index (lastOf (i 0 : Nat) hi0) 0 * 512 + 512
      rw [(idx0_8 _).1]
      show (4 * ((i 0 : Nat) / 512) + 3) / 4 * 512 ≤ (i 0 : Nat) ∧ (i 0 : Nat) < (4 * ((i 0 : Nat) / 512) + 3) / 4 * 512 + 512
      omega
    | ⟨1, _⟩ =>
      show win0_8.index (lastOf (i 0 : Nat) hi0) 1 * 64 ≤ (i 1 : Nat) ∧ (i 1 : Nat) < win0_8.index (lastOf (i 0 : Nat) hi0) 1 * 64 + 64
      rw [(idx0_8 _).2]
      omega

end Cert.KernelIdeal.Val

end
-- ==== Proof.KI.R1Pieces.lean ====
import proofs.«412247_j45363444580421_3_alg».proof.Proof.KI.R1Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

abbrev slice1 (i : grid1.Coords) (x1 : Vec F S16384x64 .f32) : Vec F S4096x64 .f32 :=
  View.ld x1 (Rect.unit (s := S16384x64) (k1_off1 i) S4096x64.size (k1_off1_inb i))

variable (c : Dev nD) (M : Mem1) (X : In1 F)

set_option maxHeartbeats 1000000 in
/-- Each case's outputs in closed form: unfold the run and read its pieces. -/
theorem out1_B_eq (hc0 : ¬cond1_0 M.i) (hc1 : ¬cond1_1 M.i) (xs0 : Vec F S512x64 .f32) :
    (out1_B c M X hc0 hc1 xs0).2 = k1_pay2 (slice1 M.i X.x1) xs0 X.x5 := by
  unfold out1_B kernelRun1_B
  dsimp only
  sl_unfold_run_names
  rw [View.canon_unit_zero hz1]
  simp only [View.readAt_eq_ld, M.h2.read_unread, M.h3.read_unread, M.h4.read_unread, M.h5.read_unread, M.h6.read_unread, M.h7.read_unread, M.h8.read_unread, M.h9.read_unread, M.h11.read_unread, View.ld_unit_zero (S := S512x64) hz1, View.ld_unit_zero (S := S64x64) hz1, View.ld_unit_zero (S := S512x4096) hz1, View.ld_unit_zero (S := S8x64) hz1, View.ld_unit_zero (S := S1x8) hz1]

set_option maxHeartbeats 1000000 in
theorem out1_A_eq (hc0 : cond1_0 M.i) (hc1 : ¬cond1_1 M.i) :
    (out1_A c M X hc0 hc1).2 = k1_pay2 (slice1 M.i X.x1) (k1_pay1 X.x0 X.x2) X.x5 := by
  unfold out1_A kernelRun1_A
  dsimp only
  sl_unfold_run_names
  rw [View.canon_cons_unit_zero (S := S512x64) hz1, View.readCov_unit_zero (S := S512x64) _ hz1]
  simp only [View.readAt_eq_ld, M.h2.read_unread, M.h3.read_unread, M.h4.read_unread, M.h5.read_unread, M.h6.read_unread, M.h7.read_unread, M.h8.read_unread, M.h9.read_unread, M.h11.read_unread, View.ld_unit_zero (S := S512x64) hz1, View.ld_unit_zero (S := S64x64) hz1, View.ld_unit_zero (S := S512x4096) hz1, View.ld_unit_zero (S := S8x64) hz1, View.ld_unit_zero (S := S1x8) hz1]

set_option maxHeartbeats 1000000 in
theorem out1_C_eq (hc0 : ¬cond1_0 M.i) (hc1 : cond1_1 M.i) (xs0 : Vec F S512x64 .f32) :
    out1_C c M X hc0 hc1 xs0 = (k1_pay3 (k1_pay2 (slice1 M.i X.x1) xs0 X.x5) X.x3 X.x4 X.x6 X.x7, k1_pay2 (slice1 M.i X.x1) xs0 X.x5) := by
  unfold out1_C kernelRun1_C
  dsimp only
  sl_unfold_run_names
  rw [View.canon_unit_zero hz1, View.canon_unit_zero hz1, View.readCov_unit_zero (S := S512x64) _ hz1]
  simp only [View.readAt_eq_ld, M.h2.read_unread, M.h3.read_unread, M.h4.read_unread, M.h5.read_unread, M.h6.read_unread, M.h7.read_unread, M.h8.read_unread, M.h9.read_unread, M.h11.read_unread, View.ld_unit_zero (S := S512x64) hz1, View.ld_unit_zero (S := S64x64) hz1, View.ld_unit_zero (S := S512x4096) hz1, View.ld_unit_zero (S := S8x64) hz1, View.ld_unit_zero (S := S1x8) hz1]

end Cert.KernelIdeal.Fr

end
-- ==== Proof.KI.Val1a.lean ====
import proofs.«412247_j45363444580421_3_alg».proof.Proof.KI.R1Runs
import proofs.«412247_j45363444580421_3_alg».proof.Proof.Spec
import Idealize.ShloMosaic.Lib.ValueIdx
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (V : (c : Dev nD) → (b : Ref sig .tc) → Buf (Elt Ideal) ((c : Thread nD τ).loc b))

theorem N1 : cfg1.N = 128 := N_1

theorem row1_lt (t : Fin cfg1.N) (r : Fin 512) : 512 * (t.val / 4) + r.val < 16384 := by
  have h : t.val < 128 := N1 ▸ t.isLt
  have := r.isLt; omega

theorem col1_lt (t : Fin cfg1.N) (l : Fin 4096) : 4096 * (t.val % 4) + l.val < 16384 := by
  have := l.isLt; omega

abbrev rowOf1 (t : Fin cfg1.N) (r : Fin 512) : Fin 16384 := ⟨512 * (t.val / 4) + r.val, row1_lt t r⟩

abbrev colOf1 (t : Fin cfg1.N) (l : Fin 4096) : Fin 16384 := ⟨4096 * (t.val % 4) + l.val, col1_lt t l⟩

theorem coords1 : ∀ t : Fin cfg1.N, ((grid1.coords t) 0).val = t.val / 4 ∧ ((grid1.coords t) 1).val = t.val % 4 :=
  (by decide +kernel : ∀ t : Fin grid1.N, ((grid1.coords t) 0).val = t.val / 4 ∧ ((grid1.coords t) 1).val = t.val % 4)

theorem idx1_0 : ∀ t : Fin cfg1.N, win1_0.index t (0 : Fin 2) = t.val / 4 ∧ win1_0.index t 1 = 0 :=
  (by decide +kernel : ∀ t : Fin grid1.N, win1_0.index t (0 : Fin 2) = t.val / 4 ∧ win1_0.index t 1 = 0)
theorem idx1_1 : ∀ t : Fin cfg1.N, win1_1.index t (0 : Fin 2) = 0 ∧ win1_1.index t 1 = 0 :=
  (by decide +kernel : ∀ t : Fin grid1.N, win1_1.index t (0 : Fin 2) = 0 ∧ win1_1.index t 1 = 0)
theorem idx1_2 : ∀ t : Fin cfg1.N, win1_2.index t (0 : Fin 2) = 0 ∧ win1_2.index t 1 = 0 :=
  (by decide +kernel : ∀ t : Fin grid1.N, win1_2.index t (0 : Fin 2) = 0 ∧ win1_2.index t 1 = 0)
theorem idx1_3 : ∀ t : Fin cfg1.N, win1_3.index t (0 : Fin 2) = t.val / 4 ∧ win1_3.index t 1 = 0 :=
  (by decide +kernel : ∀ t : Fin grid1.N, win1_3.index t (0 : Fin 2) = t.val / 4 ∧ win1_3.index t 1 = 0)
theorem idx1_4 : ∀ t : Fin cfg1.N, win1_4.index t (0 : Fin 2) = t.val / 4 ∧ win1_4.index t 1 = 0 :=
  (by decide +kernel : ∀ t : Fin grid1.N, win1_4.index t (0 : Fin 2) = t.val / 4 ∧ win1_4.index t 1 = 0)
theorem idx1_5 : ∀ t : Fin cfg1.N, win1_5.index t (0 : Fin 2) = t.val / 4 ∧ win1_5.index t 1 = t.val % 4 :=
  (by decide +kernel : ∀ t : Fin grid1.N, win1_5.index t (0 : Fin 2) = t.val / 4 ∧ win1_5.index t 1 = t.val % 4)
theorem idx1_6 : ∀ t : Fin cfg1.N, win1_6.index t (0 : Fin 2) = 0 ∧ win1_6.index t 1 = 0 :=
  (by decide +kernel : ∀ t : Fin grid1.N, win1_6.index t (0 : Fin 2) = 0 ∧ win1_6.index t 1 = 0)
theorem idx1_7 : ∀ t : Fin cfg1.N, win1_7.index t (0 : Fin 2) = 0 ∧ win1_7.index t 1 = 0 :=
  (by decide +kernel : ∀ t : Fin grid1.N, win1_7.index t (0 : Fin 2) = 0 ∧ win1_7.index t 1 = 0)
theorem idx1_8 : ∀ t : Fin cfg1.N, win1_8.index t (0 : Fin 2) = t.val / 4 ∧ win1_8.index t 1 = 0 :=
  (by decide +kernel : ∀ t : Fin grid1.N, win1_8.index t (0 : Fin 2) = t.val / 4 ∧ win1_8.index t 1 = 0)

abbrev arr1H (c : Dev nD) : Vec Ideal S16384x64 .f32 := V c main_v32_0

abbrev arr1HL (c : Dev nD) : Vec Ideal S16384x64 .f32 := V c main_v32_1

abbrev arr1W (c : Dev nD) : Vec Ideal S64x64 .f32 := V c main_arg7

abbrev arr1RW (c : Dev nD) : Vec Ideal S16384x64 .f32 := V c main_v21

abbrev arr1RB (c : Dev nD) : Vec Ideal S16384x64 .f32 := V c main_v28

abbrev arr1A (c : Dev nD) : Vec Ideal S16384x16384 .f32 := V c main_arg1

abbrev arr1WO (c : Dev nD) : Vec Ideal S8x64 .f32 := V c main_arg11

abbrev arr1B (c : Dev nD) : Vec Ideal S1x8 .f32 := V c main_v0

abbrev blk1_0 (c : Dev nD) (t : Fin cfg1.N) : Vec Ideal S512x64 .f32 := iblk1 V c 0 t
abbrev blk1_1 (c : Dev nD) (t : Fin cfg1.N) : Vec Ideal S16384x64 .f32 := iblk1 V c 1 t
abbrev blk1_2 (c : Dev nD) (t : Fin cfg1.N) : Vec Ideal S64x64 .f32 := iblk1 V c 2 t
abbrev blk1_3 (c : Dev nD) (t : Fin cfg1.N) : Vec Ideal S512x64 .f32 := iblk1 V c 3 t
abbrev blk1_4 (c : Dev nD) (t : Fin cfg1.N) : Vec Ideal S512x64 .f32 := iblk1 V c 4 t
abbrev blk1_5 (c : Dev nD) (t : Fin cfg1.N) : Vec Ideal S512x4096 .f32 := iblk1 V c 5 t
abbrev blk1_6 (c : Dev nD) (t : Fin cfg1.N) : Vec Ideal S8x64 .f32 := iblk1 V c 6 t
abbrev blk1_7 (c : Dev nD) (t : Fin cfg1.N) : Vec Ideal S1x8 .f32 := iblk1 V c 7 t

theorem blk1_0_apply (c : Dev nD) (t : Fin cfg1.N) (r : Fin 512) (j : Fin 64) :
    blk1_0 V c t (ix2 r j) = arr1H V c (ix2 (rowOf1 t r) j) := by
  unfold blk1_0 arr1H iblk1
  rw [View.read_apply]
  show V c main_v32_0 _ = V c main_v32_0 _
  congr 1
  funext a
  apply Fin.ext
  match a with
  | ⟨0, _⟩ => show win1_0.index t 0 * 512 + 1 * r.val = 512 * (t.val / 4) + r.val; rw [(idx1_0 t).1]; omega
  | ⟨1, _⟩ => show win1_0.index t 1 * 64 + 1 * j.val = j.val; rw [(idx1_0 t).2]; omega

theorem blk1_1_apply (c : Dev nD) (t : Fin cfg1.N) (l : Fin 16384) (j : Fin 64) :
    blk1_1 V c t (ix2 l j) = arr1HL V c (ix2 l j) := by
  unfold blk1_1 arr1HL iblk1
  rw [View.read_apply]
  show V c main_v32_1 _ = V c main_v32_1 _
  congr 1
  funext a
  apply Fin.ext
  match a with
  | ⟨0, _⟩ => show win1_1.index t 0 * 16384 + 1 * l.val = l.val; rw [(idx1_1 t).1]; omega
  | ⟨1, _⟩ => show win1_1.index t 1 * 64 + 1 * j.val = j.val; rw [(idx1_1 t).2]; omega

theorem blk1_2_apply (c : Dev nD) (t : Fin cfg1.N) (d : Fin 64) (j : Fin 64) :
    blk1_2 V c t (ix2 d j) = arr1W V c (ix2 d j) := by
  unfold blk1_2 arr1W iblk1
  rw [View.read_apply]
  show V c main_arg7 _ = V c main_arg7 _
  congr 1
  funext a
  apply Fin.ext
  match a with
  | ⟨0, _⟩ => show win1_2.index t 0 * 64 + 1 * d.val = d.val; rw [(idx1_2 t).1]; omega
  | ⟨1, _⟩ => show win1_2.index t 1 * 64 + 1 * j.val = j.val; rw [(idx1_2 t).2]; omega

theorem blk1_3_apply (c : Dev nD) (t : Fin cfg1.N) (r : Fin 512) (j : Fin 64) :
    blk1_3 V c t (ix2 r j) = arr1RW V c (ix2 (rowOf1 t r) j) := by
  unfold blk1_3 arr1RW iblk1
  rw [View.read_apply]
  show V c main_v21 _ = V c main_v21 _
  congr 1
  funext a
  apply Fin.ext
  match a with
  | ⟨0, _⟩ => show win1_3.index t 0 * 512 + 1 * r.val = 512 * (t.val / 4) + r.val; rw [(idx1_3 t).1]; omega
  | ⟨1, _⟩ => show win1_3.index t 1 * 64 + 1 * j.val = j.val; rw [(idx1_3 t).2]; omega

theorem blk1_4_apply (c : Dev nD) (t : Fin cfg1.N) (r : Fin 512) (j : Fin 64) :
    blk1_4 V c t (ix2 r j) = arr1RB V c (ix2 (rowOf1 t r) j) := by
  unfold blk1_4 arr1RB iblk1
  rw [View.read_apply]
  show V c main_v28 _ = V c main_v28 _
  congr 1
  funext a
  apply Fin.ext
  match a with
  | ⟨0, _⟩ => show win1_4.index t 0 * 512 + 1 * r.val = 512 * (t.val / 4) + r.val; rw [(idx1_4 t).1]; omega
  | ⟨1, _⟩ => show win1_4.index t 1 * 64 + 1 * j.val = j.val; rw [(idx1_4 t).2]; omega

theorem blk1_5_apply (c : Dev nD) (t : Fin cfg1.N) (r : Fin 512) (l : Fin 4096) :
    blk1_5 V c t (ix2 r l) = arr1A V c (ix2 (rowOf1 t r) (colOf1 t l)) := by
  unfold blk1_5 arr1A iblk1
  rw [View.read_apply]
  show V c main_arg1 _ = V c main_arg1 _
  congr 1
  funext a
  apply Fin.ext
  match a with
  | ⟨0, _⟩ => show win1_5.index t 0 * 512 + 1 * r.val = 512 * (t.val / 4) + r.val; rw [(idx1_5 t).1]; omega
  | ⟨1, _⟩ => show win1_5.index t 1 * 4096 + 1 * l.val = 4096 * (t.val % 4) + l.val; rw [(idx1_5 t).2]; omega

theorem blk1_6_apply (c : Dev nD) (t : Fin cfg1.N) (o : Fin 8) (d : Fin 64) :
    blk1_6 V c t (ix2 o d) = arr1WO V c (ix2 o d) := by
  unfold blk1_6 arr1WO iblk1
  rw [View.read_apply]
  show V c main_arg11 _ = V c main_arg11 _
  congr 1
  funext a
  apply Fin.ext
  match a with
  | ⟨0, _⟩ => show win1_6.index t 0 * 8 + 1 * o.val = o.val; rw [(idx1_6 t).1]; omega
  | ⟨1, _⟩ => show win1_6.index t 1 * 64 + 1 * d.val = d.val; rw [(idx1_6 t).2]; omega

theorem blk1_7_apply (c : Dev nD) (t : Fin cfg1.N) (z : Fin 1) (o : Fin 8) :
    blk1_7 V c t (ix2 z o) = arr1B V c (ix2 z o) := by
  unfold blk1_7 arr1B iblk1
  rw [View.read_apply]
  show V c main_v0 _ = V c main_v0 _
  congr 1
  funext a
  apply Fin.ext
  match a with
  | ⟨0, _⟩ => show win1_7.index t 0 * 1 + 1 * z.val = z.val; rw [(idx1_7 t).1]; omega
  | ⟨1, _⟩ => show win1_7.index t 1 * 8 + 1 * o.val = o.val; rw [(idx1_7 t).2]; omega

theorem off1_eq : ∀ t : Fin cfg1.N, k1_off1 (grid1.coords t) (0 : Fin 2) = 4096 * (t.val % 4) ∧ k1_off1 (grid1.coords t) 1 = 0 :=
  (by decide +kernel : ∀ t : Fin grid1.N, k1_off1 (grid1.coords t) (0 : Fin 2) = 4096 * (t.val % 4) ∧ k1_off1 (grid1.coords t) 1 = 0)

theorem slice1_apply (x1 : Vec Ideal S16384x64 .f32) (t : Fin cfg1.N) (l : Fin 4096) (j : Fin 64) :
    (View.ld x1 (Rect.unit (s := S16384x64) (k1_off1 (grid1.coords t)) S4096x64.size (k1_off1_inb (grid1.coords t)))
        : Vec Ideal S4096x64 .f32) (ix2 l j)
      = x1 (ix2 (colOf1 t l) j) := by
  show x1 _ = x1 _
  congr 1
  funext a
  apply Fin.ext
  match a with
  | ⟨0, _⟩ => show k1_off1 (grid1.coords t) 0 + 1 * l.val = 4096 * (t.val % 4) + l.val; rw [(off1_eq t).1]; omega
  | ⟨1, _⟩ => show k1_off1 (grid1.coords t) 1 + 1 * j.val = j.val; rw [(off1_eq t).2]; omega

end Cert.KernelIdeal.Val

end
-- ==== Proof.KI.Pay1.lean ====
import proofs.«412247_j45363444580421_3_alg».proof.Proof.Gen.KernelIdeal.Skeleton
import proofs.«412247_j45363444580421_3_alg».proof.Proof.Spec
import proofs.«412247_j45363444580421_3_alg».proof.Proof.KI.Pay0
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Idealize.SL.Sem

theorem mm_d8_apply {φ₁ φ₂ : FTy} (A : FVec Ideal S512x64 φ₁) (B : FVec Ideal S8x64 φ₂) (r : Fin 512) (o : Fin 8) :
    FloatOps.matmul dot_S512x64_S8x64_S512x8_1_1_0_0_n_n none A B (constant S512x8 .f32 0x00000000#32) (ix2 r o)
      = ∑ d : Fin 64, A (ix2 r d) * B (ix2 o d) :=
  mm_apply_of _ 64 rfl rfl A B _ (ix2 r ·) (ix2 o ·) (fun _ => (eq_ix2 _).trans rfl) fun _ => (eq_ix2 _).trans rfl

theorem k1_pay1_apply (v20 : Vec Ideal S512x64 .f32) (v23 : Vec Ideal S64x64 .f32) (r : Fin 512) (j : Fin 64) :
    Gen.k1_pay1 v20 v23 (ix2 r j) = ∑ d : Fin 64, v20 (ix2 r d) * v23 (ix2 d j) := by
  unfold Gen.k1_pay1
  simp only [shapeCast_self]
  exact mm_d64_apply (truncf .bf16 v20 bitsLt_bf16_f32) (truncf .bf16 v23 bitsLt_bf16_f32) r j

/-- The second launch's accumulation step is the first's text. -/
theorem k1_pay2_apply (v6 : Vec Ideal S4096x64 .f32) (v8 : Vec Ideal S512x64 .f32) (v9 : Vec Ideal S512x4096 .f32)
    (r : Fin 512) (j : Fin 64) :
    Gen.k1_pay2 v6 v8 v9 (ix2 r j) = v8 (ix2 r j) + ∑ l : Fin 4096, v9 (ix2 r l) * v6 (ix2 l j) :=
  pay2_apply v6 v8 v9 r j

theorem k1_pay3_apply (v20 v21 v24 : Vec Ideal S512x64 .f32) (v30 : Vec Ideal S8x64 .f32) (v33 : Vec Ideal S1x8 .f32)
    (r : Fin 512) (o : Fin 8) :
    Gen.k1_pay3 v20 v21 v24 v30 v33 (ix2 r o)
      = (∑ d : Fin 64, max (v20 (ix2 r d) * v21 (ix2 r d) + v24 (ix2 r d)) 0 * v30 (ix2 o d)) + v33 (ix2 0 o) := by
  unfold Gen.k1_pay3
  simp only [shapeCast_self]
  rw [addf_apply, broadcastTo_1b_ab_apply]
  refine congrArg (· + v33 (ix2 0 o)) ?_
  refine (mm_d8_apply _ _ r o).trans (Finset.sum_congr rfl fun d _ => ?_)
  rw [truncf_apply, truncf_apply, maximumf_apply, addf_apply, mulf_apply, broadcast_apply]
  exact congrArg (fun z => max _ z * _) Ideal.ofBits_zero_f32

end Cert.KernelIdeal.PayValue

end
-- ==== Proof.KI.Val1b.lean ====
import proofs.«412247_j45363444580421_3_alg».proof.Proof.KI.Pay1
import proofs.«412247_j45363444580421_3_alg».proof.Proof.Spec

noncomputable section

namespace Cert.KernelIdeal.Val

open Cert.KernelIdeal Cert.KernelIdeal.Gen Cert.KernelIdeal.PayValue
open Idealize.ShloMosaic Idealize.ShloMosaic.ValueIdx Idealize.SL.Sem

theorem tile1_of_blocks (A : Spec.Mat 16384 16384) (HL : Spec.Mat 16384 64) (k : Fin 4) (i : Fin 16384)
    (x5 : Vec Ideal S512x4096 .f32) (v6 : Vec Ideal S4096x64 .f32) (r : Fin 512) (j : Fin 64)
    (h5 : ∀ l : Fin 4096, x5 (ix2 r l) = A i (Spec.tileIdx k l))
    (h6 : ∀ l : Fin 4096, v6 (ix2 l j) = HL (Spec.tileIdx k l) j) :
    (∑ l : Fin 4096, x5 (ix2 r l) * v6 (ix2 l j)) = Spec.tile A HL k i j := by
  unfold Spec.tile
  exact Finset.sum_congr rfl fun l _ => by rw [h5 l, h6 l]

theorem first_step1 (H : Spec.Mat 16384 64) (A : Spec.Mat 16384 16384) (W : Spec.Mat 64 64) (HL : Spec.Mat 16384 64)
    (k : Fin 4) (i : Fin 16384)
    (x0 : Vec Ideal S512x64 .f32) (x2 : Vec Ideal S64x64 .f32) (x5 : Vec Ideal S512x4096 .f32) (v6 : Vec Ideal S4096x64 .f32)
    (r : Fin 512) (j : Fin 64)
    (h0 : ∀ d : Fin 64, x0 (ix2 r d) = H i d) (h2 : ∀ d : Fin 64, x2 (ix2 d j) = W d j)
    (h5 : ∀ l : Fin 4096, x5 (ix2 r l) = A i (Spec.tileIdx k l))
    (h6 : ∀ l : Fin 4096, v6 (ix2 l j) = HL (Spec.tileIdx k l) j) :
    Gen.k1_pay2 v6 (Gen.k1_pay1 x0 x2) x5 (ix2 r j) = Spec.mm H W i j + Spec.tile A HL k i j := by
  rw [k1_pay2_apply, k1_pay1_apply, tile1_of_blocks A HL k i x5 v6 r j h5 h6]
  refine congrArg (· + Spec.tile A HL k i j) ?_
  unfold Spec.mm
  exact Finset.sum_congr rfl fun d _ => by rw [h0 d, h2 d]

theorem later_step1 (A : Spec.Mat 16384 16384) (HL : Spec.Mat 16384 64) (k : Fin 4) (i : Fin 16384)
    (xs : Vec Ideal S512x64 .f32) (x5 : Vec Ideal S512x4096 .f32) (v6 : Vec Ideal S4096x64 .f32)
    (r : Fin 512) (j : Fin 64) (a : EReal) (hs : xs (ix2 r j) = a)
    (h5 : ∀ l : Fin 4096, x5 (ix2 r l) = A i (Spec.tileIdx k l))
    (h6 : ∀ l : Fin 4096, v6 (ix2 l j) = HL (Spec.tileIdx k l) j) :
    Gen.k1_pay2 v6 xs x5 (ix2 r j) = a + Spec.tile A HL k i j := by
  rw [k1_pay2_apply, tile1_of_blocks A HL k i x5 v6 r j h5 h6, hs]

theorem readout_step1 (H : Spec.Mat 16384 64) (A : Spec.Mat 16384 16384) (W : Spec.Mat 64 64) (HL RW RB : Spec.Mat 16384 64)
    (WO : Spec.Mat 8 64) (b : Fin 8 → EReal) (i : Fin 16384)
    (acc x3 x4 : Vec Ideal S512x64 .f32) (x6 : Vec Ideal S8x64 .f32) (x7 : Vec Ideal S1x8 .f32)
    (r : Fin 512) (o : Fin 8)
    (hacc : ∀ d : Fin 64, acc (ix2 r d) = Spec.mm H W i d + Spec.mm A HL i d)
    (h3 : ∀ d : Fin 64, x3 (ix2 r d) = RW i d) (h4 : ∀ d : Fin 64, x4 (ix2 r d) = RB i d)
    (h6 : ∀ d : Fin 64, x6 (ix2 o d) = WO o d) (h7 : x7 (ix2 0 o) = b o) :
    Gen.k1_pay3 acc x3 x4 x6 x7 (ix2 r o) = Spec.readout (Spec.conv H A W HL RW RB) WO b i o := by
  rw [k1_pay3_apply, h7]
  unfold Spec.readout Spec.conv
  refine congrArg (· + b o) ?_
  exact Finset.sum_congr rfl fun d _ => by rw [hacc d, h3 d, h4 d, h6 d]

theorem acc1_next (H : Spec.Mat 16384 64) (A : Spec.Mat 16384 16384) (W : Spec.Mat 64 64) (HL : Spec.Mat 16384 64)
    (m : ℕ) (hm : m + 1 < 4) (i : Fin 16384) (j : Fin 64) :
    Spec.accUpTo H A W HL (m + 1) i j = Spec.accUpTo H A W HL m i j + Spec.tile A HL ⟨m + 1, hm⟩ i j := by
  show Spec.accUpTo H A W HL m i j + (if hn : m + 1 < 4 then Spec.tile A HL ⟨m + 1, hn⟩ i j else 0) = _
  rw [dif_pos hm]

end Cert.KernelIdeal.Val

end
-- ==== Proof.KI.Val1c.lean ====
import proofs.«412247_j45363444580421_3_alg».proof.Proof.KI.R1Pieces
import proofs.«412247_j45363444580421_3_alg».proof.Proof.KI.Val1a
import proofs.«412247_j45363444580421_3_alg».proof.Proof.KI.Val1b
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev m1H (c : Dev nD) : Spec.Mat 16384 64 := Spec.m2 (arr1H V c)
abbrev m1HL (c : Dev nD) : Spec.Mat 16384 64 := Spec.m2 (arr1HL V c)
abbrev m1W (c : Dev nD) : Spec.Mat 64 64 := Spec.m2 (arr1W V c)
abbrev m1RW (c : Dev nD) : Spec.Mat 16384 64 := Spec.m2 (arr1RW V c)
abbrev m1RB (c : Dev nD) : Spec.Mat 16384 64 := Spec.m2 (arr1RB V c)
abbrev m1A (c : Dev nD) : Spec.Mat 16384 16384 := Spec.m2 (arr1A V c)
abbrev m1WO (c : Dev nD) : Spec.Mat 8 64 := Spec.m2 (arr1WO V c)
abbrev m1B (c : Dev nD) : Spec.Mat 1 8 := Spec.m2 (arr1B V c)

abbrev bias1 (c : Dev nD) : Fin 8 → EReal := fun o => m1B V c 0 o

/-- The layer's read-out, entry by entry: what the result array is to hold. -/
abbrev result1 (c : Dev nD) : Vec Ideal S16384x8 .f32 := fun idx =>
  Spec.readout (Spec.conv (m1H V c) (m1A V c) (m1W V c) (m1HL V c) (m1RW V c) (m1RB V c)) (m1WO V c) (bias1 V c) (idx 0) (idx 1)

theorem col1_tile (t : Fin cfg1.N) (k : Fin 4) (hk : t.val % 4 = k.val) (l : Fin 4096) : colOf1 t l = Spec.tileIdx k l :=
  Fin.ext (by show 4096 * (t.val % 4) + l.val = 4096 * k.val + l.val; rw [hk])

theorem adj1_entry (c : Dev nD) (t : Fin cfg1.N) (k : Fin 4) (hk : t.val % 4 = k.val) (r : Fin 512) (l : Fin 4096) :
    blk1_5 V c t (ix2 r l) = m1A V c (rowOf1 t r) (Spec.tileIdx k l) := by
  rw [blk1_5_apply, col1_tile t k hk l]; rfl

theorem opd1_entry (c : Dev nD) (t : Fin cfg1.N) (k : Fin 4) (hk : t.val % 4 = k.val) (l : Fin 4096) (j : Fin 64) :
    slice1 (grid1.coords t) (blk1_1 V c t) (ix2 l j) = m1HL V c (Spec.tileIdx k l) j := by
  refine (slice1_apply (blk1_1 V c t) t l j).trans ?_
  rw [blk1_1_apply, col1_tile t k hk l]; rfl

theorem scratch1_first (c : Dev nD) (t : Fin cfg1.N) (h0 : t.val % 4 = 0) (h1 : ¬t.val % 4 = 3) (r : Fin 512) (j : Fin 64) :
    (outsAt1 V c t.val t.isLt).2 (ix2 r j)
      = Spec.mm (m1H V c) (m1W V c) (rowOf1 t r) j + Spec.tile (m1A V c) (m1HL V c) 0 (rowOf1 t r) j := by
  rw [outsAt1_A V c t h0 h1, out1_A_eq]
  exact first_step1 (m1H V c) (m1A V c) (m1W V c) (m1HL V c) 0 (rowOf1 t r) (blk1_0 V c t) (blk1_2 V c t) (blk1_5 V c t) (slice1 (grid1.coords t) (blk1_1 V c t)) r j
    (fun d => blk1_0_apply V c t r d) (fun d => blk1_2_apply V c t d j)
    (fun l => adj1_entry V c t 0 h0 r l) (fun l => opd1_entry V c t 0 h0 l j)

/-- The middle and the last step change the scratch in the same way. -/
theorem scratch1_step (c : Dev nD) (t : Fin cfg1.N) (h0 : ¬t.val % 4 = 0) :
    (outsAt1 V c t.val t.isLt).2 = k1_pay2 (slice1 (grid1.coords t) (blk1_1 V c t)) (outsAt1 V c (t.val - 1) (Nat.lt_of_le_of_lt (Nat.sub_le _ _) t.isLt)).2 (blk1_5 V c t) := by
  by_cases h1 : t.val % 4 = 3
  · rw [outsAt1_C V c t h0 h1, out1_C_eq]
  · rw [outsAt1_B V c t h0 h1, out1_B_eq]

theorem scratch1_later (c : Dev nD) (t : Fin cfg1.N) (h0 : ¬t.val % 4 = 0) (k : Fin 4) (hk : t.val % 4 = k.val)
    (r : Fin 512) (j : Fin 64) (a : EReal) (ha : (outsAt1 V c (t.val - 1) (Nat.lt_of_le_of_lt (Nat.sub_le _ _) t.isLt)).2 (ix2 r j) = a) :
    (outsAt1 V c t.val t.isLt).2 (ix2 r j) = a + Spec.tile (m1A V c) (m1HL V c) k (rowOf1 t r) j := by
  rw [scratch1_step V c t h0]
  exact later_step1 (m1A V c) (m1HL V c) k (rowOf1 t r) (outsAt1 V c (t.val - 1) (Nat.lt_of_le_of_lt (Nat.sub_le _ _) t.isLt)).2 (blk1_5 V c t) (slice1 (grid1.coords t) (blk1_1 V c t)) r j a ha
    (fun l => adj1_entry V c t k hk r l) (fun l => opd1_entry V c t k hk l j)

/-- By induction on `n`: within a row tile each step appends the next column tile to the sum. -/
theorem scratch1_eq (c : Dev nD) : ∀ (n : ℕ) (h : n < cfg1.N) (r : Fin 512) (j : Fin 64),
    (outsAt1 V c n h).2 (ix2 r j)
      = Spec.accUpTo (m1H V c) (m1A V c) (m1W V c) (m1HL V c) (n % 4) (rowOf1 ⟨n, h⟩ r) j
  | 0, h, r, j => scratch1_first V c ⟨0, h⟩ rfl (by show ¬(0 % 4 = 3); decide) r j
  | n + 1, h, r, j => by
    by_cases h0 : (n + 1) % 4 = 0
    · have h1 : ¬(n + 1) % 4 = 3 := by omega
      rw [h0]
      exact scratch1_first V c ⟨n + 1, h⟩ h0 h1 r j
    · have e4 : (n + 1) % 4 = n % 4 + 1 := by omega
      have hm : n % 4 + 1 < 4 := by omega
      have erow : rowOf1 ⟨n, Nat.lt_of_succ_lt h⟩ r = rowOf1 ⟨n + 1, h⟩ r :=
        Fin.ext (by show 512 * (n / 4) + r.val = 512 * ((n + 1) / 4) + r.val; omega)
      rw [e4, acc1_next _ _ _ _ (n % 4) hm]
      exact scratch1_later V c ⟨n + 1, h⟩ h0 ⟨n % 4 + 1, hm⟩ e4 r j _ (by rw [← erow]; exact scratch1_eq c n (Nat.lt_of_succ_lt h) r j)

/-- Three tiles after the first the sum is complete (`Spec.accUpTo_three`), and what is stored is its read-out. -/
theorem out1_last (c : Dev nD) (t : Fin cfg1.N) (h0 : ¬t.val % 4 = 0) (h1 : t.val % 4 = 3) (r : Fin 512) (o : Fin 8) :
    (outsAt1 V c t.val t.isLt).1 (ix2 r o)
      = Spec.readout (Spec.conv (m1H V c) (m1A V c) (m1W V c) (m1HL V c) (m1RW V c) (m1RB V c)) (m1WO V c) (bias1 V c) (rowOf1 t r) o := by
  have hacc : ∀ d : Fin 64, (outsAt1 V c t.val t.isLt).2 (ix2 r d)
      = Spec.mm (m1H V c) (m1W V c) (rowOf1 t r) d + Spec.mm (m1A V c) (m1HL V c) (rowOf1 t r) d := fun d => by
    rw [scratch1_eq V c t.val t.isLt r d, h1, Spec.accUpTo_three]
  rw [outsAt1_C V c t h0 h1, out1_C_eq] at hacc ⊢
  exact readout_step1 (m1H V c) (m1A V c) (m1W V c) (m1HL V c) (m1RW V c) (m1RB V c) (m1WO V c) (bias1 V c) (rowOf1 t r)
    (Gen.k1_pay2 (slice1 (grid1.coords t) (blk1_1 V c t)) (outsAt1 V c (t.val - 1) (Nat.lt_of_le_of_lt (Nat.sub_le _ _) t.isLt)).2 (blk1_5 V c t)) (blk1_3 V c t) (blk1_4 V c t) (blk1_6 V c t) (blk1_7 V c t) r o
    hacc (fun d => blk1_3_apply V c t r d) (fun d => blk1_4_apply V c t r d) (fun d => blk1_6_apply V c t o d) (blk1_7_apply V c t 0 o)

theorem flushed1_8 (c : Dev nD) (t : Fin cfg1.N) (hf : (cfg1.win 8).flush t = true) :
    (dat1 V c).flushed 8 t = ((cfg1.win 8).blk t).view.read (Elt Ideal) (result1 V c) := by
  have h1 : t.val % 4 = 3 := (flush1_8 t).mp hf
  have h0 : ¬t.val % 4 = 0 := by omega
  funext y
  obtain ⟨r, o, rfl⟩ : ∃ (r : Fin 512) (o : Fin 8), y = ix2 r o := ⟨y 0, y 1, eq_ix2 y⟩
  rw [View.read_apply]
  show (outsAt1 V c t.val t.isLt).1 (ix2 r o) = result1 V c (((cfg1.win 8).blk t).view.emb (ix2 r o))
  rw [out1_last V c t h0 h1 r o]
  show Spec.readout _ _ _ (rowOf1 t r) o = Spec.readout _ _ _ _ _
  congr 1
  · apply Fin.ext
    show 512 * (t.val / 4) + r.val = win1_8.index t 0 * 512 + 1 * r.val
    rw [(idx1_8 t).1]; omega
  · apply Fin.ext
    show o.val = win1_8.index t 1 * 8 + 1 * o.val
    rw [(idx1_8 t).2]; omega

/-- Every index of the result lies in the block stored at the last step of its row tile. -/
theorem final1_8 (c : Dev nD) : (dat1 V c).arrAt 8 cfg1.N = result1 V c :=
  (dat1 V c).arrAt_eq_of_cover 8 (result1 V c) (flushed1_8 V c) fun i => by
    have hi0 : (i 0 : Nat) < 16384 := (i 0).isLt
    have hi1 : (i 1 : Nat) < 8 := (i 1).isLt
    have hN : cfg1.N = 128 := N1
    let t : Fin cfg1.N := ⟨4 * ((i 0 : Nat) / 512) + 3, by rw [hN]; omega⟩
    have ht : t.val = 4 * ((i 0 : Nat) / 512) + 3 := rfl
    refine ⟨t, (flush1_8 t).mpr (by rw [ht]; omega), ?_⟩
    show i ∈ ((View.whole main_v33).slice (win1_8.rect t)).set
    rw [View.set_slice_whole, Rect.mem_set_unit]
    intro a
    match a with
    | ⟨0, _⟩ =>
      show win1_8.index t 0 * 512 ≤ (i 0 : Nat) ∧ (i 0 : Nat) < win1_8.index t 0 * 512 + 512
      rw [(idx1_8 t).1, ht]; omega
    | ⟨1, _⟩ =>
      show win1_8.index t 1 * 8 ≤ (i 1 : Nat) ∧ (i 1 : Nat) < win1_8.index t 1 * 8 + 8
      rw [(idx1_8 t).2]; omega

end Cert.KernelIdeal.Val

end
-- ==== Proof.KI.Entry.lean ====
import proofs.«412247_j45363444580421_3_alg».proof.Proof.Gen.KernelIdeal.Launch
import proofs.«412247_j45363444580421_3_alg».proof.Proof.Gen.KernelIdeal.Regions
import Idealize.ShloMosaic.Lib.StableHlo.Run

set_option maxRecDepth 8192
set_option maxHeartbeats 2000000

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

abbrev E0 : Valuation τ sig (Elt F) := StableHlo.after hostOps0 (fun b => m (c, b))

def idxCol (x : (⟨S16384, .i32⟩ : BufTy).Contents (Elt F)) : (⟨S16384x1, .i32⟩ : BufTy).Contents (Elt F) :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 64#32))) x)

def gathered (T : (⟨S64x64, .f32⟩ : BufTy).Contents (Elt F)) (x : (⟨S16384, .i32⟩ : BufTy).Contents (Elt F)) :
    (⟨S16384x64, .f32⟩ : BufTy).Contents (Elt F) :=
  Host.gather gather_S64x64_S16384x1_S16384x64_1_0_n_n_0_1_164 T (idxCol x)

theorem E0_arg0 : E0 m c (Proc.devRef .tc main_arg0) = m ((c : Thread nD τ).loc main_arg0) :=
  V1_of m c main_arg0 (by decide)

theorem E0_arg1 : E0 m c (Proc.devRef .tc main_arg1) = m ((c : Thread nD τ).loc main_arg1) :=
  V1_of m c main_arg1 (by decide)

theorem E0_arg3 : E0 m c (Proc.devRef .tc main_arg3) = m ((c : Thread nD τ).loc main_arg3) :=
  V1_of m c main_arg3 (by decide)

theorem E0_arg7 : E0 m c (Proc.devRef .tc main_arg7) = m ((c : Thread nD τ).loc main_arg7) :=
  V1_of m c main_arg7 (by decide)

theorem E0_arg8 : E0 m c (Proc.devRef .tc main_arg8) = m ((c : Thread nD τ).loc main_arg8) :=
  V1_of m c main_arg8 (by decide)

theorem E0_arg11 : E0 m c (Proc.devRef .tc main_arg11) = m ((c : Thread nD τ).loc main_arg11) :=
  V1_of m c main_arg11 (by decide)
theorem E0_v31 : E0 m c (Proc.devRef .tc main_v31) = Host.dotGeneral dot_S16384x64_S64x64_S16384x64_1_0_0_1_n_n none
        (truncf .bf16 (m ((c : Thread nD τ).loc main_arg0)) bitsLt_bf16_f32) (truncf .bf16 (m ((c : Thread nD τ).loc main_arg4)) bitsLt_bf16_f32) := by
  after_results_simp <;> rfl
theorem E0_v7 : E0 m c (Proc.devRef .tc main_v7) = gathered (m ((c : Thread nD τ).loc main_arg5)) (m ((c : Thread nD τ).loc main_arg2)) := by
  after_results_simp <;> rfl
theorem E0_v14 : E0 m c (Proc.devRef .tc main_v14) = gathered (m ((c : Thread nD τ).loc main_arg6)) (m ((c : Thread nD τ).loc main_arg2)) := by
  after_results_simp <;> rfl
theorem E0_v21 : E0 m c (Proc.devRef .tc main_v21) = gathered (m ((c : Thread nD τ).loc main_arg9)) (m ((c : Thread nD τ).loc main_arg2)) := by
  after_results_simp <;> rfl
theorem E0_v28 : E0 m c (Proc.devRef .tc main_v28) = gathered (m ((c : Thread nD τ).loc main_arg10)) (m ((c : Thread nD τ).loc main_arg2)) := by
  after_results_simp <;> rfl
theorem E0_v0 : E0 m c (Proc.devRef .tc main_v0) = shapeCast S1x8 (m ((c : Thread nD τ).loc main_arg12)) shapeCasts_S8_S1x8 := by
  after_results_simp <;> rfl

end Cert.KernelIdeal.Val

end
-- ==== Proof.RefSide.lean ====
import proofs.«412247_j45363444580421_3_alg».proof.Proof.Gen.ReferenceIdeal.Read
import proofs.«412247_j45363444580421_3_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read

abbrev Feat : Type := (⟨S16384x64, .f32⟩ : BufTy).Contents (Elt Ideal)

abbrev Adj : Type := (⟨S16384x16384, .f32⟩ : BufTy).Contents (Elt Ideal)

abbrev Ind : Type := (⟨S16384, .i32⟩ : BufTy).Contents (Elt Ideal)

abbrev Sq : Type := (⟨S64x64, .f32⟩ : BufTy).Contents (Elt Ideal)

def X1 (x0 : Feat) (x1 : Adj) (x2 : Ind) (x3 x4 x5 x6 : Sq) : Spec.Mat 16384 64 :=
  Spec.conv (Spec.m2 x0) (Spec.m2 x1) (Spec.m2 x3) (Spec.mm (Spec.m2 x0) (Spec.m2 x4))
    (Spec.m2 (val_main_v10 (F := Ideal) x2 x5)) (Spec.m2 (val_main_v18 (F := Ideal) x2 x6))

def X2 (x0 : Feat) (x1 : Adj) (x2 : Ind) (x3 x4 x5 x6 x7 x8 x9 x10 : Sq) : Spec.Mat 16384 64 :=
  Spec.conv (X1 x0 x1 x2 x3 x4 x5 x6) (Spec.m2 x1) (Spec.m2 x7) (Spec.mm (X1 x0 x1 x2 x3 x4 x5 x6) (Spec.m2 x8))
    (Spec.m2 (val_main_v31 (F := Ideal) x2 x9)) (Spec.m2 (val_main_v39 (F := Ideal) x2 x10))

theorem lidx_v0 (i : Fin 16384) (j : Fin 64) (k : Fin 64) : lidx_main_v0 (ValueIdx.ix2 i j) k = ValueIdx.ix2 i k := (ValueIdx.eq_ix2 _).trans rfl
theorem ridx_v0 (i : Fin 16384) (j : Fin 64) (k : Fin 64) : ridx_main_v0 (ValueIdx.ix2 i j) k = ValueIdx.ix2 k j := (ValueIdx.eq_ix2 _).trans rfl
theorem lidx_v1 (i : Fin 16384) (j : Fin 64) (k : Fin 64) : lidx_main_v1 (ValueIdx.ix2 i j) k = ValueIdx.ix2 i k := (ValueIdx.eq_ix2 _).trans rfl
theorem ridx_v1 (i : Fin 16384) (j : Fin 64) (k : Fin 64) : ridx_main_v1 (ValueIdx.ix2 i j) k = ValueIdx.ix2 k j := (ValueIdx.eq_ix2 _).trans rfl
theorem lidx_v2 (i : Fin 16384) (j : Fin 64) (k : Fin 16384) : lidx_main_v2 (ValueIdx.ix2 i j) k = ValueIdx.ix2 i k := (ValueIdx.eq_ix2 _).trans rfl
theorem ridx_v2 (i : Fin 16384) (j : Fin 64) (k : Fin 16384) : ridx_main_v2 (ValueIdx.ix2 i j) k = ValueIdx.ix2 k j := (ValueIdx.eq_ix2 _).trans rfl
theorem lidx_v21 (i : Fin 16384) (j : Fin 64) (k : Fin 64) : lidx_main_v21 (ValueIdx.ix2 i j) k = ValueIdx.ix2 i k := (ValueIdx.eq_ix2 _).trans rfl
theorem ridx_v21 (i : Fin 16384) (j : Fin 64) (k : Fin 64) : ridx_main_v21 (ValueIdx.ix2 i j) k = ValueIdx.ix2 k j := (ValueIdx.eq_ix2 _).trans rfl
theorem lidx_v22 (i : Fin 16384) (j : Fin 64) (k : Fin 64) : lidx_main_v22 (ValueIdx.ix2 i j) k = ValueIdx.ix2 i k := (ValueIdx.eq_ix2 _).trans rfl
theorem ridx_v22 (i : Fin 16384) (j : Fin 64) (k : Fin 64) : ridx_main_v22 (ValueIdx.ix2 i j) k = ValueIdx.ix2 k j := (ValueIdx.eq_ix2 _).trans rfl
theorem lidx_v23 (i : Fin 16384) (j : Fin 64) (k : Fin 16384) : lidx_main_v23 (ValueIdx.ix2 i j) k = ValueIdx.ix2 i k := (ValueIdx.eq_ix2 _).trans rfl
theorem ridx_v23 (i : Fin 16384) (j : Fin 64) (k : Fin 16384) : ridx_main_v23 (ValueIdx.ix2 i j) k = ValueIdx.ix2 k j := (ValueIdx.eq_ix2 _).trans rfl
theorem lidx_v43 (i : Fin 16384) (j : Fin 8) (k : Fin 64) : lidx_main_v43 (ValueIdx.ix2 i j) k = ValueIdx.ix2 i k := (ValueIdx.eq_ix2 _).trans rfl
theorem ridx_v43 (i : Fin 16384) (j : Fin 8) (k : Fin 64) : ridx_main_v43 (ValueIdx.ix2 i j) k = ValueIdx.ix2 k j := (ValueIdx.eq_ix2 _).trans rfl

theorem v1_mm (x0 : Feat) (x4 : Sq) :
    Spec.m2 (val_main_v1 (F := Ideal) x0 x4) = Spec.mm (Spec.m2 x0) (Spec.m2 x4) := by
  funext i j
  rw [Spec.m2_apply, val_main_v1_apply]
  simp only [lidx_v1, ridx_v1]
  rfl

theorem v0_mm (x0 : Feat) (x3 : Sq) :
    Spec.m2 (val_main_v0 (F := Ideal) x0 x3) = Spec.mm (Spec.m2 x0) (Spec.m2 x3) := by
  funext i j
  rw [Spec.m2_apply, val_main_v0_apply]
  simp only [lidx_v0, ridx_v0]
  rfl

theorem v3_apply (x0 : Feat) (x1 : Adj) (x3 x4 : Sq) (i : Fin 16384) (j : Fin 64) :
    val_main_v3 (F := Ideal) x0 x1 x3 x4 (ValueIdx.ix2 i j)
      = Spec.mm (Spec.m2 x0) (Spec.m2 x3) i j + Spec.mm (Spec.m2 x1) (Spec.mm (Spec.m2 x0) (Spec.m2 x4)) i j := by
  rw [val_main_v3_apply, Ideal.addf_def, val_main_v0_apply, val_main_v2_apply]
  simp only [val_main_v1_apply, lidx_v0, ridx_v0, lidx_v1, ridx_v1, lidx_v2, ridx_v2]
  rfl

theorem relu0_zero (i : S16384x64.Idx) : val_main_call0_v0 (F := Ideal) i = 0 := by
  rw [val_main_call0_v0_apply, val_main_call0_cst_apply, Ideal.ofBits_def, Ideal.ofBits_zero_f32]

theorem relu1_zero (i : S16384x64.Idx) : val_main_call1_v0 (F := Ideal) i = 0 := by
  rw [val_main_call1_v0_apply, val_main_call1_cst_apply, Ideal.ofBits_def, Ideal.ofBits_zero_f32]

theorem v20_apply (x0 : Feat) (x1 : Adj) (x2 : Ind) (x3 x4 x5 x6 : Sq) (i : Fin 16384) (j : Fin 64) :
    val_main_v20 (F := Ideal) x0 x1 x2 x3 x4 x5 x6 (ValueIdx.ix2 i j) = X1 x0 x1 x2 x3 x4 x5 x6 i j := by
  rw [val_main_v20_apply, val_main_v19_apply, val_main_v11_apply, Ideal.maximumf_def, Ideal.addf_def, Ideal.mulf_def,
    relu0_zero, v3_apply]
  rfl

theorem v22_mm (x0 : Feat) (x1 : Adj) (x2 : Ind) (x3 x4 x5 x6 x8 : Sq) :
    Spec.m2 (val_main_v22 (F := Ideal) x0 x1 x2 x3 x4 x5 x6 x8)
      = Spec.mm (X1 x0 x1 x2 x3 x4 x5 x6) (Spec.m2 x8) := by
  funext i j
  rw [Spec.m2_apply, val_main_v22_apply]
  simp only [lidx_v22, ridx_v22, v20_apply]
  rfl

theorem v24_apply (x0 : Feat) (x1 : Adj) (x2 : Ind) (x3 x4 x5 x6 x7 x8 : Sq) (i : Fin 16384) (j : Fin 64) :
    val_main_v24 (F := Ideal) x0 x1 x2 x3 x4 x5 x6 x7 x8 (ValueIdx.ix2 i j)
      = Spec.mm (X1 x0 x1 x2 x3 x4 x5 x6) (Spec.m2 x7) i j
        + Spec.mm (Spec.m2 x1) (Spec.mm (X1 x0 x1 x2 x3 x4 x5 x6) (Spec.m2 x8)) i j := by
  rw [val_main_v24_apply, Ideal.addf_def, val_main_v21_apply, val_main_v23_apply]
  simp only [val_main_v22_apply, lidx_v21, ridx_v21, lidx_v22, ridx_v22, lidx_v23, ridx_v23, v20_apply]
  rfl

theorem v41_apply (x0 : Feat) (x1 : Adj) (x2 : Ind) (x3 x4 x5 x6 x7 x8 x9 x10 : Sq) (i : Fin 16384) (j : Fin 64) :
    val_main_v41 (F := Ideal) x0 x1 x2 x3 x4 x5 x6 x7 x8 x9 x10 (ValueIdx.ix2 i j)
      = X2 x0 x1 x2 x3 x4 x5 x6 x7 x8 x9 x10 i j := by
  rw [val_main_v41_apply, val_main_v40_apply, val_main_v32_apply, Ideal.maximumf_def, Ideal.addf_def, Ideal.mulf_def,
    relu1_zero, v24_apply]
  rfl

theorem idx_v42 (k : Fin 64) (o : Fin 8) : idx_main_v42 (ValueIdx.ix2 k o) = ValueIdx.ix2 o k := (ValueIdx.eq_ix2 _).trans rfl

theorem idx_v45 (i : Fin 16384) (o : Fin 8) : idx_main_v44 (idx_main_v45 (ValueIdx.ix2 i o)) = ValueIdx.ix1 o :=
  funext fun a => Fin.ext (by match a with | ⟨0, _⟩ => rfl)

theorem ref_out (x0 : Feat) (x1 : Adj) (x2 : Ind) (x3 x4 x5 x6 x7 x8 x9 x10 : Sq)
    (x11 : (⟨S8x64, .f32⟩ : BufTy).Contents (Elt Ideal)) (x12 : (⟨S8, .f32⟩ : BufTy).Contents (Elt Ideal))
    (i : Fin 16384) (o : Fin 8) :
    val_main_v46 (F := Ideal) x0 x1 x2 x3 x4 x5 x6 x7 x8 x9 x10 x11 x12 (ValueIdx.ix2 i o)
      = Spec.readout (X2 x0 x1 x2 x3 x4 x5 x6 x7 x8 x9 x10) (Spec.m2 x11) (Spec.v1 x12) i o := by
  rw [val_main_v46_apply, Ideal.addf_def, val_main_v43_apply, val_main_v45_apply, val_main_v44_apply, idx_v45]
  simp only [val_main_v42_apply, lidx_v43, ridx_v43, idx_v42, v41_apply]
  rfl

end Cert.ReferenceIdeal.RefValue

end
-- ==== Proof.KI.Bridge.lean ====
import proofs.«412247_j45363444580421_3_alg».proof.Proof.KI.Entry
import proofs.«412247_j45363444580421_3_alg».proof.Proof.RefSide
import Idealize.ShloMosaic.Lib.ValueLayout

noncomputable section

namespace Cert.KernelIdeal.Val

open Idealize.ShloMosaic Idealize.ShloMosaic.ValueIdx Cert.Spec
open Cert.KernelIdeal.Facts₀

theorem gathered_v10 (T : (⟨Cert.KernelIdeal.S64x64, .f32⟩ : BufTy).Contents (Elt Ideal)) (x : (⟨Cert.KernelIdeal.S16384, .i32⟩ : BufTy).Contents (Elt Ideal)) :
    gathered (F := Ideal) T x = Cert.ReferenceIdeal.Read.val_main_v10 (F := Ideal) x T := rfl
theorem gathered_v18 (T : (⟨Cert.KernelIdeal.S64x64, .f32⟩ : BufTy).Contents (Elt Ideal)) (x : (⟨Cert.KernelIdeal.S16384, .i32⟩ : BufTy).Contents (Elt Ideal)) :
    gathered (F := Ideal) T x = Cert.ReferenceIdeal.Read.val_main_v18 (F := Ideal) x T := rfl
theorem gathered_v31 (T : (⟨Cert.KernelIdeal.S64x64, .f32⟩ : BufTy).Contents (Elt Ideal)) (x : (⟨Cert.KernelIdeal.S16384, .i32⟩ : BufTy).Contents (Elt Ideal)) :
    gathered (F := Ideal) T x = Cert.ReferenceIdeal.Read.val_main_v31 (F := Ideal) x T := rfl
theorem gathered_v39 (T : (⟨Cert.KernelIdeal.S64x64, .f32⟩ : BufTy).Contents (Elt Ideal)) (x : (⟨Cert.KernelIdeal.S16384, .i32⟩ : BufTy).Contents (Elt Ideal)) :
    gathered (F := Ideal) T x = Cert.ReferenceIdeal.Read.val_main_v39 (F := Ideal) x T := rfl

theorem hostDot_v1 (x0 : (⟨Cert.KernelIdeal.S16384x64, .f32⟩ : BufTy).Contents (Elt Ideal)) (x4 : (⟨Cert.KernelIdeal.S64x64, .f32⟩ : BufTy).Contents (Elt Ideal)) :
    Host.dotGeneral (F := Ideal) Cert.KernelIdeal.dot_S16384x64_S64x64_S16384x64_1_0_0_1_n_n none
        (truncf .bf16 x0 bitsLt_bf16_f32) (truncf .bf16 x4 bitsLt_bf16_f32)
      = Cert.ReferenceIdeal.Read.val_main_v1 (F := Ideal) x0 x4 := rfl

theorem bias_row (x12 : (⟨Cert.KernelIdeal.S8, .f32⟩ : BufTy).Contents (Elt Ideal)) (o : Fin 8) :
    Spec.m2 (shapeCast Cert.KernelIdeal.S1x8 x12 shapeCasts_S8_S1x8) 0 o = Spec.v1 x12 o := by
  unfold Spec.m2 Spec.v1
  exact shapeCast_a_1a_apply x12 _ 0 o

end Cert.KernelIdeal.Val

end
-- ==== Proof.KI.Final.lean ====
import proofs.«412247_j45363444580421_3_alg».proof.Proof.KI.Main
import proofs.«412247_j45363444580421_3_alg».proof.Proof.KI.Val0d
import proofs.«412247_j45363444580421_3_alg».proof.Proof.KI.Val1c
import proofs.«412247_j45363444580421_3_alg».proof.Proof.KI.Bridge

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Cert.Spec Cert.ReferenceIdeal.RefValue
open Idealize.ShloMosaic.Pipeline (Dat)

variable (m : (ℓ : Loc nD τ sig) → Buf (Elt Ideal) ℓ) (c : Dev nD)

theorem m2_of_entries {a b : ℕ} (G : Mat a b) : Spec.m2 (fun idx : (⟨2, ![a, b]⟩ : Shape).Idx => G (idx 0) (idx 1)) = G := rfl

theorem in0_H : mH (U1 m) c = Spec.m2 (m ((c : Thread nD τ).loc main_arg0)) := congrArg Spec.m2 (E0_arg0 m c)
theorem in0_W : mW (U1 m) c = Spec.m2 (m ((c : Thread nD τ).loc main_arg3)) := congrArg Spec.m2 (E0_arg3 m c)
theorem in0_A : mA (U1 m) c = Spec.m2 (m ((c : Thread nD τ).loc main_arg1)) := congrArg Spec.m2 (E0_arg1 m c)
theorem in0_LN : mLN (U1 m) c = Spec.m2 (m ((c : Thread nD τ).loc main_arg8)) := congrArg Spec.m2 (E0_arg8 m c)
theorem in0_HL : mHL (U1 m) c = Spec.mm (Spec.m2 (m ((c : Thread nD τ).loc main_arg0))) (Spec.m2 (m ((c : Thread nD τ).loc main_arg4))) :=
  (congrArg Spec.m2 ((E0_v31 m c).trans (hostDot_v1 _ _))).trans (v1_mm _ _)
theorem in0_RW : mRW (U1 m) c = Spec.m2 (Cert.ReferenceIdeal.Read.val_main_v10 (F := Ideal) (m ((c : Thread nD τ).loc main_arg2)) (m ((c : Thread nD τ).loc main_arg5))) :=
  congrArg Spec.m2 ((E0_v7 m c).trans (gathered_v10 _ _))
theorem in0_RB : mRB (U1 m) c = Spec.m2 (Cert.ReferenceIdeal.Read.val_main_v18 (F := Ideal) (m ((c : Thread nD τ).loc main_arg2)) (m ((c : Thread nD τ).loc main_arg6))) :=
  congrArg Spec.m2 ((E0_v14 m c).trans (gathered_v18 _ _))

theorem layer1 : convAt (U1 m) c = X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show Spec.conv (mH (U1 m) c) (mA (U1 m) c) (mW (U1 m) c) (mHL (U1 m) c) (mRW (U1 m) c) (mRB (U1 m) c) = _
  rw [in0_H, in0_A, in0_W, in0_HL, in0_RW, in0_RB]
  rfl

theorem in1_H : m1H (U2 m) c = convAt (U1 m) c :=
  (congrArg Spec.m2 ((U2_main_v32_0 m c).trans (final0_7 (U1 m) c))).trans (m2_of_entries _)
theorem in1_HL : m1HL (U2 m) c = Spec.mm (convAt (U1 m) c) (Spec.m2 (m ((c : Thread nD τ).loc main_arg8))) :=
  ((congrArg Spec.m2 ((U2_main_v32_1 m c).trans (final0_8 (U1 m) c))).trans (m2_of_entries _)).trans
    (congrArg (Spec.mm (convAt (U1 m) c)) (in0_LN m c))
theorem in1_W : m1W (U2 m) c = Spec.m2 (m ((c : Thread nD τ).loc main_arg7)) :=
  congrArg Spec.m2 ((U2_of_ne m c main_arg7 (by decide)).trans (E0_arg7 m c))
theorem in1_A : m1A (U2 m) c = Spec.m2 (m ((c : Thread nD τ).loc main_arg1)) :=
  congrArg Spec.m2 (((W2_arr m c 5).trans (((dat0 (U1 m) c).arrAt_in 5 rfl _).trans (A_eq0 (U1 m) c 5))).trans (E0_arg1 m c))
theorem in1_WO : m1WO (U2 m) c = Spec.m2 (m ((c : Thread nD τ).loc main_arg11)) :=
  congrArg Spec.m2 ((U2_of_ne m c main_arg11 (by decide)).trans (E0_arg11 m c))
theorem in1_RW : m1RW (U2 m) c = Spec.m2 (Cert.ReferenceIdeal.Read.val_main_v31 (F := Ideal) (m ((c : Thread nD τ).loc main_arg2)) (m ((c : Thread nD τ).loc main_arg9))) :=
  congrArg Spec.m2 (((U2_of_ne m c main_v21 (by decide)).trans (E0_v21 m c)).trans (gathered_v31 _ _))
theorem in1_RB : m1RB (U2 m) c = Spec.m2 (Cert.ReferenceIdeal.Read.val_main_v39 (F := Ideal) (m ((c : Thread nD τ).loc main_arg2)) (m ((c : Thread nD τ).loc main_arg10))) :=
  congrArg Spec.m2 (((U2_of_ne m c main_v28 (by decide)).trans (E0_v28 m c)).trans (gathered_v39 _ _))
theorem in1_bias : bias1 (U2 m) c = Spec.v1 (m ((c : Thread nD τ).loc main_arg12)) := by
  funext o
  show Spec.m2 (U2 m c main_v0) 0 o = _
  rw [show U2 m c main_v0 = _ from (U2_of_ne m c main_v0 (by decide)).trans (E0_v0 m c)]
  exact bias_row _ o

theorem layer2 : Spec.conv (m1H (U2 m) c) (m1A (U2 m) c) (m1W (U2 m) c) (m1HL (U2 m) c) (m1RW (U2 m) c) (m1RB (U2 m) c)
    = X2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [in1_H, in1_A, in1_W, in1_HL, in1_RW, in1_RB, layer1]
  rfl

theorem ref_eq_kernel :
    Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      = (dat1 (U2 m) c).arrAt 8 cfg1.N := by
  rw [final1_8 (U2 m) c]
  funext idx
  obtain ⟨i, o, rfl⟩ : ∃ (i : Fin 16384) (o : Fin 8), idx = ix2 i o := ⟨idx 0, idx 1, eq_ix2 idx⟩
  refine (ref_out _ _ _ _ _ _ _ _ _ _ _ _ _ i o).trans ?_
  show _ = Spec.readout (Spec.conv (m1H (U2 m) c) (m1A (U2 m) c) (m1W (U2 m) c) (m1HL (U2 m) c) (m1RW (U2 m) c) (m1RB (U2 m) c))
    (m1WO (U2 m) c) (bias1 (U2 m) c) i o
  rw [layer2, in1_WO, in1_bias]

end Cert.KernelIdeal.Val

end
-- ==== Proof.lean ====
/- Two graph-convolution layers and a linear read-out over 16384 vertices: the kernel's two tiled launches against the plain reference, on the extended reals.
    Each launch adds the adjacency product to the dense part one column tile at a time; addition there is associative and commutative, so the tiles sum to the whole product. -/
import proofs.«412247_j45363444580421_3_alg».proof.Defs
import proofs.«412247_j45363444580421_3_alg».proof.Proof.Gen.Kernel
import proofs.«412247_j45363444580421_3_alg».proof.Proof.Gen.KernelIdeal
import proofs.«412247_j45363444580421_3_alg».proof.Proof.Gen.ReferenceIdeal
import proofs.«412247_j45363444580421_3_alg».proof.Proof.Gen.Pre_finite_inputs
import proofs.«412247_j45363444580421_3_alg».proof.Proof.Gen.ReferenceIdeal.Run
import proofs.«412247_j45363444580421_3_alg».proof.Proof.K.Main
import proofs.«412247_j45363444580421_3_alg».proof.Proof.KI.Final
import proofs.«412247_j45363444580421_3_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => (Cert.KernelIdeal.Fr.dat1 (Cert.KernelIdeal.Fr.U2 m) c).arrAt 8 Cert.KernelIdeal.cfg1.N,
    Cert.KernelIdeal.Fr.value_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v46_eq, h0, h1, h2, h3, h4, h5, h6, h7, h8, h9, h10, h11, h12]
  exact Cert.KernelIdeal.Val.ref_eq_kernel m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
